-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x3 : Shape := ⟨2, ![2048, 3]⟩
abbrev S2048x128 : Shape := ⟨2, ![2048, 128]⟩
abbrev S65536x2 : Shape := ⟨2, ![65536, 2]⟩
abbrev S2048x65536 : Shape := ⟨2, ![2048, 65536]⟩
abbrev S2048x8 : Shape := ⟨2, ![2048, 8]⟩
abbrev S65536x4 : Shape := ⟨2, ![65536, 4]⟩
abbrev S261x256 : Shape := ⟨2, ![261, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S392x256 : Shape := ⟨2, ![392, 256]⟩
abbrev S256x128 : Shape := ⟨2, ![256, 128]⟩
abbrev S128 : Shape := ⟨1, ![128]⟩
abbrev S_ : Shape := ⟨0, ![]⟩

class Facts : Prop where
  bcast_S_S2048x3 : S_.BroadcastsInDim S2048x3 (![] : Fin 0 → Fin S2048x3.rank)
  reducesTo_S2048x3_S_d0_1 : S2048x3.ReducesTo [0, 1] S_
  h_S_ : 0 < S_.numel
  bcast_S_S2048x128 : S_.BroadcastsInDim S2048x128 (![] : Fin 0 → Fin S2048x128.rank)
  reducesTo_S2048x128_S_d0_1 : S2048x128.ReducesTo [0, 1] S_
  bcast_S_S2048x65536 : S_.BroadcastsInDim S2048x65536 (![] : Fin 0 → Fin S2048x65536.rank)
  reducesTo_S2048x65536_S_d0_1 : S2048x65536.ReducesTo [0, 1] S_
  bcast_S_S2048x8 : S_.BroadcastsInDim S2048x8 (![] : Fin 0 → Fin S2048x8.rank)
  reducesTo_S2048x8_S_d0_1 : S2048x8.ReducesTo [0, 1] S_
  bcast_S_S65536x4 : S_.BroadcastsInDim S65536x4 (![] : Fin 0 → Fin S65536x4.rank)
  reducesTo_S65536x4_S_d0_1 : S65536x4.ReducesTo [0, 1] S_
  bcast_S_S261x256 : S_.BroadcastsInDim S261x256 (![] : Fin 0 → Fin S261x256.rank)
  reducesTo_S261x256_S_d0_1 : S261x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S392x256 : S_.BroadcastsInDim S392x256 (![] : Fin 0 → Fin S392x256.rank)
  reducesTo_S392x256_S_d0_1 : S392x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S65536x2 : S_.BroadcastsInDim S65536x2 (![] : Fin 0 → Fin S65536x2.rank)
  reducesTo_S65536x2_S_d0_1 : S65536x2.ReducesTo [0, 1] S_

variable [Facts]

def fn_part6 {F : FTy → Type} [FloatOps F] (main_arg2 : IVec S65536x2 32) (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  let main_c_40 : IVec S_ 32 := constantI S_ 32 4294965248#32
  let main_v104 : IVec S65536x2 32 := broadcastInDim S65536x2 ![] bcast_S_S65536x2 main_c_40
  let main_v105 : IVec S65536x2 1 := cmpi .sge main_arg2 main_v104
  let main_c_41 : IVec S_ 1 := constantI S_ 1 1#1
  let main_v106 : IVec S_ 1 := (fun x v => Host.reduce IntOp.andi x v reducesTo_S65536x2_S_d0_1 h_S_) main_v105 main_c_41
  let main_v107 : IVec S_ 1 := andi main_v103 main_v106
  let main_c_42 : IVec S_ 32 := constantI S_ 32 2048#32
  let main_v108 : IVec S65536x2 32 := broadcastInDim S65536x2 ![] bcast_S_S65536x2 main_c_42
  let main_v109 : IVec S65536x2 1 := cmpi .slt main_arg2 main_v108
  let main_c_43 : IVec S_ 1 := constantI S_ 1 1#1
  let main_v110 : IVec S_ 1 := (fun x v => Host.reduce IntOp.andi x v reducesTo_S65536x2_S_d0_1 h_S_) main_v109 main_c_43
  let main_v111 : IVec S_ 1 := andi main_v107 main_v110
  main_v111

def fn_part5 {F : FTy → Type} [FloatOps F] (main_arg2 : IVec S65536x2 32) (main_arg19 : FVec F S128 .f32) (main_arg20 : FVec F S256x1 .f32) (main_arg21 : FVec F S1 .f32) (main_v83 : IVec S_ 1) (main_v84 : FVec F S256x128 .f32) (main_cst_32 : FVec F S_ .f32) : IVec S_ 1 :=
  let main_v85 : FVec F S256x128 .f32 := broadcastInDim S256x128 ![] bcast_S_S256x128 main_cst_32
  let main_v86 : IVec S256x128 1 := cmpf .olt main_v84 main_v85
  let main_c_33 : IVec S_ 1 := constantI S_ 1 1#1
  let main_v87 : IVec S_ 1 := (fun x v => Host.reduce IntOp.andi x v reducesTo_S256x128_S_d0_1 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S256x1 .f32 := Host.absf main_arg20
  let main_cst_36 : FVec F S_ .f32 := constant S_ .f32 0x7F800000#32
  let main_v95 : FVec F S256x1 .f32 := broadcastInDim S256x1 ![] bcast_S_S256x1 main_cst_36
  let main_v96 : IVec S256x1 1 := cmpf .olt main_v94 main_v95
  let main_c_37 : IVec S_ 1 := constantI S_ 1 1#1
  let main_v97 : IVec S_ 1 := (fun x v => Host.reduce IntOp.andi x v reducesTo_S256x1_S_d0_1 h_S_) main_v96 main_c_37
  let main_v98 : IVec S_ 1 := andi main_v93 main_v97
  let main_v99 : FVec F S1 .f32 := Host.absf main_arg21
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_arg2 main_v98 main_v101 main_c_39

def fn_part4 {F : FTy → Type} [FloatOps F] (main_arg2 : IVec S65536x2 32) (main_arg15 : FVec F S1 .f32) (main_arg16 : FVec F S392x256 .f32) (main_arg17 : FVec F S256 .f32) (main_arg18 : FVec F S256x128 .f32) (main_arg19 : FVec F S128 .f32) (main_arg20 : FVec F S256x1 .f32) (main_arg21 : FVec F S1 .f32) (main_v63 : IVec S_ 1) (main_v67 : IVec S_ 1) : IVec S_ 1 :=
  let main_v68 : IVec S_ 1 := andi main_v63 main_v67
  let main_v69 : FVec F S1 .f32 := Host.absf main_arg15
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_v74 : FVec F S392x256 .f32 := Host.absf main_arg16
  let main_cst_28 : FVec F S_ .f32 := constant S_ .f32 0x7F800000#32
  let main_v75 : FVec F S392x256 .f32 := broadcastInDim S392x256 ![] bcast_S_S392x256 main_cst_28
  let main_v76 : IVec S392x256 1 := cmpf .olt main_v74 main_v75
  let main_c_29 : IVec S_ 1 := constantI S_ 1 1#1
  let main_v77 : IVec S_ 1 := (fun x v => Host.reduce IntOp.andi x v reducesTo_S392x256_S_d0_1 h_S_) main_v76 main_c_29
  let main_v78 : IVec S_ 1 := andi main_v73 main_v77
  let main_v79 : FVec F S256 .f32 := Host.absf main_arg17
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256x128 .f32 := Host.absf main_arg18
  let main_cst_32 : FVec F S_ .f32 := constant S_ .f32 0x7F800000#32
  fn_part5 (F := F) main_arg2 main_arg19 main_arg20 main_arg21 main_v83 main_v84 main_cst_32

def fn_part3 {F : FTy → Type} [FloatOps F] (main_arg2 : IVec S65536x2 32) (main_arg12 : FVec F S256x256 .f32) (main_arg13 : FVec F S256 .f32) (main_arg14 : FVec F S256x1 .f32) (main_arg15 : FVec F S1 .f32) (main_arg16 : FVec F S392x256 .f32) (main_arg17 : FVec F S256 .f32) (main_arg18 : FVec F S256x128 .f32) (main_arg19 : FVec F S128 .f32) (main_arg20 : FVec F S256x1 .f32) (main_arg21 : FVec F S1 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg12
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x1 .f32 := Host.absf main_arg14
  let main_cst_24 : FVec F S_ .f32 := constant S_ .f32 0x7F800000#32
  let main_v65 : FVec F S256x1 .f32 := broadcastInDim S256x1 ![] bcast_S_S256x1 main_cst_24
  let main_v66 : IVec S256x1 1 := cmpf .olt main_v64 main_v65
  let main_c_25 : IVec S_ 1 := constantI S_ 1 1#1
  let main_v67 : IVec S_ 1 := (fun x v => Host.reduce IntOp.andi x v reducesTo_S256x1_S_d0_1 h_S_) main_v66 main_c_25
  fn_part4 (F := F) main_arg2 main_arg15 main_arg16 main_arg17 main_arg18 main_arg19 main_arg20 main_arg21 main_v63 main_v67

def fn_part2 {F : FTy → Type} [FloatOps F] (main_arg2 : IVec S65536x2 32) (main_arg8 : FVec F S256x256 .f32) (main_arg9 : FVec F S256 .f32) (main_arg10 : FVec F S261x256 .f32) (main_arg11 : FVec F S256 .f32) (main_arg12 : FVec F S256x256 .f32) (main_arg13 : FVec F S256 .f32) (main_arg14 : FVec F S256x1 .f32) (main_arg15 : FVec F S1 .f32) (main_arg16 : FVec F S392x256 .f32) (main_arg17 : FVec F S256 .f32) (main_arg18 : FVec F S256x128 .f32) (main_arg19 : FVec F S128 .f32) (main_arg20 : FVec F S256x1 .f32) (main_arg21 : FVec F S1 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S261x256 .f32 := Host.absf main_arg10
  let main_cst_16 : FVec F S_ .f32 := constant S_ .f32 0x7F800000#32
  let main_v45 : FVec F S261x256 .f32 := broadcastInDim S261x256 ![] bcast_S_S261x256 main_cst_16
  let main_v46 : IVec S261x256 1 := cmpf .olt main_v44 main_v45
  let main_c_17 : IVec S_ 1 := constantI S_ 1 1#1
  let main_v47 : IVec S_ 1 := (fun x v => Host.reduce IntOp.andi x v reducesTo_S261x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg2 main_arg12 main_arg13 main_arg14 main_arg15 main_arg16 main_arg17 main_arg18 main_arg19 main_arg20 main_arg21 main_v48 main_v49 main_v50

def fn_part1 {F : FTy → Type} [FloatOps F] (main_arg2 : IVec S65536x2 32) (main_arg5 : FVec F S65536x4 .f32) (main_arg6 : FVec F S261x256 .f32) (main_arg7 : FVec F S256 .f32) (main_arg8 : FVec F S256x256 .f32) (main_arg9 : FVec F S256 .f32) (main_arg10 : FVec F S261x256 .f32) (main_arg11 : FVec F S256 .f32) (main_arg12 : FVec F S256x256 .f32) (main_arg13 : FVec F S256 .f32) (main_arg14 : FVec F S256x1 .f32) (main_arg15 : FVec F S1 .f32) (main_arg16 : FVec F S392x256 .f32) (main_arg17 : FVec F S256 .f32) (main_arg18 : FVec F S256x128 .f32) (main_arg19 : FVec F S128 .f32) (main_arg20 : FVec F S256x1 .f32) (main_arg21 : FVec F S1 .f32) (main_v13 : IVec S_ 1) (main_v16 : IVec S2048x8 1) : IVec S_ 1 :=
  let main_c_5 : IVec S_ 1 := constantI S_ 1 1#1
  let main_v17 : IVec S_ 1 := (fun x v => Host.reduce IntOp.andi x v reducesTo_S2048x8_S_d0_1 h_S_) main_v16 main_c_5
  let main_v18 : IVec S_ 1 := andi main_v13 main_v17
  let main_v19 : FVec F S65536x4 .f32 := Host.absf main_arg5
  let main_cst_6 : FVec F S_ .f32 := constant S_ .f32 0x7F800000#32
  let main_v20 : FVec F S65536x4 .f32 := broadcastInDim S65536x4 ![] bcast_S_S65536x4 main_cst_6
  let main_v21 : IVec S65536x4 1 := cmpf .olt main_v19 main_v20
  let main_c_7 : IVec S_ 1 := constantI S_ 1 1#1
  let main_v22 : IVec S_ 1 := (fun x v => Host.reduce IntOp.andi x v reducesTo_S65536x4_S_d0_1 h_S_) main_v21 main_c_7
  let main_v23 : IVec S_ 1 := andi main_v18 main_v22
  let main_v24 : FVec F S261x256 .f32 := Host.absf main_arg6
  let main_cst_8 : FVec F S_ .f32 := constant S_ .f32 0x7F800000#32
  let main_v25 : FVec F S261x256 .f32 := broadcastInDim S261x256 ![] bcast_S_S261x256 main_cst_8
  let main_v26 : IVec S261x256 1 := cmpf .olt main_v24 main_v25
  let main_c_9 : IVec S_ 1 := constantI S_ 1 1#1
  let main_v27 : IVec S_ 1 := (fun x v => Host.reduce IntOp.andi x v reducesTo_S261x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg2 main_arg8 main_arg9 main_arg10 main_arg11 main_arg12 main_arg13 main_arg14 main_arg15 main_arg16 main_arg17 main_arg18 main_arg19 main_arg20 main_arg21 main_v33

def fn {F : FTy → Type} [FloatOps F] (main_arg0 : FVec F S2048x3 .f32) (main_arg1 : FVec F S2048x128 .f32) (main_arg2 : IVec S65536x2 32) (main_arg3 : FVec F S2048x65536 .f32) (main_arg4 : FVec F S2048x8 .f32) (main_arg5 : FVec F S65536x4 .f32) (main_arg6 : FVec F S261x256 .f32) (main_arg7 : FVec F S256 .f32) (main_arg8 : FVec F S256x256 .f32) (main_arg9 : FVec F S256 .f32) (main_arg10 : FVec F S261x256 .f32) (main_arg11 : FVec F S256 .f32) (main_arg12 : FVec F S256x256 .f32) (main_arg13 : FVec F S256 .f32) (main_arg14 : FVec F S256x1 .f32) (main_arg15 : FVec F S1 .f32) (main_arg16 : FVec F S392x256 .f32) (main_arg17 : FVec F S256 .f32) (main_arg18 : FVec F S256x128 .f32) (main_arg19 : FVec F S128 .f32) (main_arg20 : FVec F S256x1 .f32) (main_arg21 : FVec F S1 .f32) : IVec S_ 1 :=
  let main_v0 : FVec F S2048x3 .f32 := Host.absf main_arg0
  let main_cst : FVec F S_ .f32 := constant S_ .f32 0x7F800000#32
  let main_v1 : FVec F S2048x3 .f32 := broadcastInDim S2048x3 ![] bcast_S_S2048x3 main_cst
  let main_v2 : IVec S2048x3 1 := cmpf .olt main_v0 main_v1
  let main_c : IVec S_ 1 := constantI S_ 1 1#1
  let main_v3 : IVec S_ 1 := (fun x v => Host.reduce IntOp.andi x v reducesTo_S2048x3_S_d0_1 h_S_) main_v2 main_c
  let main_v4 : FVec F S2048x128 .f32 := Host.absf main_arg1
  let main_cst_0 : FVec F S_ .f32 := constant S_ .f32 0x7F800000#32
  let main_v5 : FVec F S2048x128 .f32 := broadcastInDim S2048x128 ![] bcast_S_S2048x128 main_cst_0
  let main_v6 : IVec S2048x128 1 := cmpf .olt main_v4 main_v5
  let main_c_1 : IVec S_ 1 := constantI S_ 1 1#1
  let main_v7 : IVec S_ 1 := (fun x v => Host.reduce IntOp.andi x v reducesTo_S2048x128_S_d0_1 h_S_) main_v6 main_c_1
  let main_v8 : IVec S_ 1 := andi main_v3 main_v7
  let main_v9 : FVec F S2048x65536 .f32 := Host.absf main_arg3
  let main_cst_2 : FVec F S_ .f32 := constant S_ .f32 0x7F800000#32
  let main_v10 : FVec F S2048x65536 .f32 := broadcastInDim S2048x65536 ![] bcast_S_S2048x65536 main_cst_2
  let main_v11 : IVec S2048x65536 1 := cmpf .olt main_v9 main_v10
  let main_c_3 : IVec S_ 1 := constantI S_ 1 1#1
  let main_v12 : IVec S_ 1 := (fun x v => Host.reduce IntOp.andi x v reducesTo_S2048x65536_S_d0_1 h_S_) main_v11 main_c_3
  let main_v13 : IVec S_ 1 := andi main_v8 main_v12
  let main_v14 : FVec F S2048x8 .f32 := Host.absf main_arg4
  let main_cst_4 : FVec F S_ .f32 := constant S_ .f32 0x7F800000#32
  let main_v15 : FVec F S2048x8 .f32 := broadcastInDim S2048x8 ![] bcast_S_S2048x8 main_cst_4
  let main_v16 : IVec S2048x8 1 := cmpf .olt main_v14 main_v15
  fn_part1 (F := F) main_arg2 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S2048x3 : Shape := ⟨2, ![2048, 3]⟩
abbrev S2048x128 : Shape := ⟨2, ![2048, 128]⟩
abbrev S65536x2 : Shape := ⟨2, ![65536, 2]⟩
abbrev S2048x65536 : Shape := ⟨2, ![2048, 65536]⟩
abbrev S2048x8 : Shape := ⟨2, ![2048, 8]⟩
abbrev S65536x4 : Shape := ⟨2, ![65536, 4]⟩
abbrev S261x256 : Shape := ⟨2, ![261, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S392x256 : Shape := ⟨2, ![392, 256]⟩
abbrev S256x128 : Shape := ⟨2, ![256, 128]⟩
abbrev S128 : Shape := ⟨1, ![128]⟩
abbrev S65536x1 : Shape := ⟨2, ![65536, 1]⟩
abbrev S65536 : Shape := ⟨1, ![65536]⟩
abbrev S_ : Shape := ⟨0, ![]⟩
abbrev S1x1 : Shape := ⟨2, ![1, 1]⟩
abbrev S65536x3 : Shape := ⟨2, ![65536, 3]⟩
abbrev S65536x128 : Shape := ⟨2, ![65536, 128]⟩
abbrev S65536x256 : Shape := ⟨2, ![65536, 256]⟩
abbrev S65536x261 : Shape := ⟨2, ![65536, 261]⟩
abbrev S65536x259 : Shape := ⟨2, ![65536, 259]⟩
abbrev S2048x261 : Shape := ⟨2, ![2048, 261]⟩
abbrev S2048x1 : Shape := ⟨2, ![2048, 1]⟩
abbrev S2048x259 : Shape := ⟨2, ![2048, 259]⟩
abbrev S2048x256 : Shape := ⟨2, ![2048, 256]⟩
abbrev S1x256 : Shape := ⟨2, ![1, 256]⟩
abbrev S1024x2048 : Shape := ⟨2, ![1024, 2048]⟩
abbrev S1024x259 : Shape := ⟨2, ![1024, 259]⟩
abbrev S1024x128 : Shape := ⟨2, ![1024, 128]⟩
abbrev S1024x256 : Shape := ⟨2, ![1024, 256]⟩
abbrev S1024x8 : Shape := ⟨2, ![1024, 8]⟩
abbrev S1024x392 : Shape := ⟨2, ![1024, 392]⟩
abbrev S1x128 : Shape := ⟨2, ![1, 128]⟩

abbrev nBuf : Space → Nat
  | .hbm => 133
  | .vmem => 39
  | .smem => 0
  | _ => 0

abbrev hbmTy0_0 (i : Nat) : BufTy := match i % 128 with
  | 0 => ⟨S2048x3, .f32⟩
  | 1 => ⟨S2048x128, .f32⟩
  | 2 => ⟨S65536x2, .i32⟩
  | 3 => ⟨S2048x65536, .f32⟩
  | 4 => ⟨S2048x8, .f32⟩
  | 5 => ⟨S65536x4, .f32⟩
  | 6 => ⟨S261x256, .f32⟩
  | 7 => ⟨S256, .f32⟩
  | 8 => ⟨S256x256, .f32⟩
  | 9 => ⟨S256, .f32⟩
  | 10 => ⟨S261x256, .f32⟩
  | 11 => ⟨S256, .f32⟩
  | 12 => ⟨S256x256, .f32⟩
  | 13 => ⟨S256, .f32⟩
  | 14 => ⟨S256x1, .f32⟩
  | 15 => ⟨S1, .f32⟩
  | 16 => ⟨S392x256, .f32⟩
  | 17 => ⟨S256, .f32⟩
  | 18 => ⟨S256x128, .f32⟩
  | 19 => ⟨S128, .f32⟩
  | 20 => ⟨S256x1, .f32⟩
  | 21 => ⟨S1, .f32⟩
  | 22 => ⟨S65536x1, .i32⟩
  | 23 => ⟨S65536, .i32⟩
  | 24 => ⟨S65536x1, .i32⟩
  | 25 => ⟨S65536, .i32⟩
  | 26 => ⟨S_, .i32⟩
  | 27 => ⟨S65536, .i32⟩
  | 28 => ⟨S65536, .i1⟩
  | 29 => ⟨S_, .i32⟩
  | 30 => ⟨S65536, .i32⟩
  | 31 => ⟨S65536, .i32⟩
  | 32 => ⟨S65536, .i32⟩
  | 33 => ⟨S65536x1, .i32⟩
  | 34 => ⟨S1, .i32⟩
  | 35 => ⟨S_, .i32⟩
  | 36 => ⟨S65536x1, .i32⟩
  | 37 => ⟨S65536x1, .i1⟩
  | 38 => ⟨S1x1, .i32⟩
  | 39 => ⟨S65536x1, .i32⟩
  | 40 => ⟨S65536x1, .i1⟩
  | 41 => ⟨S65536x1, .i1⟩
  | 42 => ⟨S_, .i1⟩
  | 43 => ⟨S65536, .i1⟩
  | 44 => ⟨S65536x3, .f32⟩
  | 45 => ⟨S65536x3, .i1⟩
  | 46 => ⟨S_, .f32⟩
  | 47 => ⟨S65536x3, .f32⟩
  | 48 => ⟨S65536x3, .f32⟩
  | 49 => ⟨S_, .i32⟩
  | 50 => ⟨S65536, .i32⟩
  | 51 => ⟨S65536, .i1⟩
  | 52 => ⟨S_, .i32⟩
  | 53 => ⟨S65536, .i32⟩
  | 54 => ⟨S65536, .i32⟩
  | 55 => ⟨S65536, .i32⟩
  | 56 => ⟨S65536x1, .i32⟩
  | 57 => ⟨S1, .i32⟩
  | 58 => ⟨S_, .i32⟩
  | 59 => ⟨S65536x1, .i32⟩
  | 60 => ⟨S65536x1, .i1⟩
  | 61 => ⟨S1x1, .i32⟩
  | 62 => ⟨S65536x1, .i32⟩
  | 63 => ⟨S65536x1, .i1⟩
  | 64 => ⟨S65536x1, .i1⟩
  | 65 => ⟨S_, .i1⟩
  | 66 => ⟨S65536, .i1⟩
  | 67 => ⟨S65536x3, .f32⟩
  | 68 => ⟨S65536x3, .i1⟩
  | 69 => ⟨S_, .f32⟩
  | 70 => ⟨S65536x3, .f32⟩
  | 71 => ⟨S65536x3, .f32⟩
  | 72 => ⟨S65536x3, .f32⟩
  | 73 => ⟨S65536x3, .f32⟩
  | 74 => ⟨S_, .f32⟩
  | 75 => ⟨S65536, .f32⟩
  | 76 => ⟨S65536x1, .f32⟩
  | 77 => ⟨S65536x1, .f32⟩
  | 78 => ⟨S_, .i32⟩
  | 79 => ⟨S65536, .i32⟩
  | 80 => ⟨S65536, .i1⟩
  | 81 => ⟨S_, .i32⟩
  | 82 => ⟨S65536, .i32⟩
  | 83 => ⟨S65536, .i32⟩
  | 84 => ⟨S65536, .i32⟩
  | 85 => ⟨S65536x1, .i32⟩
  | 86 => ⟨S1, .i32⟩
  | 87 => ⟨S_, .i32⟩
  | 88 => ⟨S65536x1, .i32⟩
  | 89 => ⟨S65536x1, .i1⟩
  | 90 => ⟨S1x1, .i32⟩
  | 91 => ⟨S65536x1, .i32⟩
  | 92 => ⟨S65536x1, .i1⟩
  | 93 => ⟨S65536x1, .i1⟩
  | 94 => ⟨S_, .i1⟩
  | 95 => ⟨S65536, .i1⟩
  | 96 => ⟨S65536x128, .f32⟩
  | 97 => ⟨S65536x128, .i1⟩
  | 98 => ⟨S_, .f32⟩
  | 99 => ⟨S65536x128, .f32⟩
  | 100 => ⟨S65536x128, .f32⟩
  | 101 => ⟨S_, .i32⟩
  | 102 => ⟨S65536, .i32⟩
  | 103 => ⟨S65536, .i1⟩
  | 104 => ⟨S_, .i32⟩
  | 105 => ⟨S65536, .i32⟩
  | 106 => ⟨S65536, .i32⟩
  | 107 => ⟨S65536, .i32⟩
  | 108 => ⟨S65536x1, .i32⟩
  | 109 => ⟨S1, .i32⟩
  | 110 => ⟨S_, .i32⟩
  | 111 => ⟨S65536x1, .i32⟩
  | 112 => ⟨S65536x1, .i1⟩
  | 113 => ⟨S1x1, .i32⟩
  | 114 => ⟨S65536x1, .i32⟩
  | 115 => ⟨S65536x1, .i1⟩
  | 116 => ⟨S65536x1, .i1⟩
  | 117 => ⟨S_, .i1⟩
  | 118 => ⟨S65536, .i1⟩
  | 119 => ⟨S65536x128, .f32⟩
  | 120 => ⟨S65536x128, .i1⟩
  | 121 => ⟨S_, .f32⟩
  | 122 => ⟨S65536x128, .f32⟩
  | 123 => ⟨S65536x128, .f32⟩
  | 124 => ⟨S65536x256, .f32⟩
  | 125 => ⟨S65536x1, .f32⟩
  | 126 => ⟨S65536x261, .f32⟩
  | 127 => ⟨S65536x259, .bf16⟩
  | _ => ⟨S2048x3, .f32⟩

abbrev hbmTy0_1 (i : Nat) : BufTy := match i % 128 with
  | 0 => ⟨S2048x259, .f32⟩
  | 1 => ⟨S2048x256, .f32⟩
  | 2 => ⟨S2048x3, .f32⟩
  | 3 => ⟨S2048x3, .f32⟩
  | 4 => ⟨S2048x128, .f32⟩
  | _ => ⟨S2048x3, .f32⟩

abbrev hbmTy (i : Nat) : BufTy := match i / 128 with
  | 0 => hbmTy0_0 i
  | 1 => hbmTy0_1 i
  | _ => ⟨S2048x3, .f32⟩

abbrev bufTy : (tb : Table) → Fin (tcTables nBuf tb) → BufTy
  | .hbm, ⟨i, _⟩ => hbmTy i
  | .local _ .vmem, ⟨0, _⟩ => ⟨S2048x261, .f32⟩
  | .local _ .vmem, ⟨1, _⟩ => ⟨S2048x261, .f32⟩
  | .local _ .vmem, ⟨2, _⟩ => ⟨S2048x3, .f32⟩
  | .local _ .vmem, ⟨3, _⟩ => ⟨S2048x3, .f32⟩
  | .local _ .vmem, ⟨4, _⟩ => ⟨S2048x1, .f32⟩
  | .local _ .vmem, ⟨5, _⟩ => ⟨S2048x1, .f32⟩
  | .local _ .vmem, ⟨6, _⟩ => ⟨S261x256, .f32⟩
  | .local _ .vmem, ⟨7, _⟩ => ⟨S256, .f32⟩
  | .local _ .vmem, ⟨8, _⟩ => ⟨S256x256, .f32⟩
  | .local _ .vmem, ⟨9, _⟩ => ⟨S256, .f32⟩
  | .local _ .vmem, ⟨10, _⟩ => ⟨S261x256, .f32⟩
  | .local _ .vmem, ⟨11, _⟩ => ⟨S256, .f32⟩
  | .local _ .vmem, ⟨12, _⟩ => ⟨S256x256, .f32⟩
  | .local _ .vmem, ⟨13, _⟩ => ⟨S256, .f32⟩
  | .local _ .vmem, ⟨14, _⟩ => ⟨S256x1, .f32⟩
  | .local _ .vmem, ⟨15, _⟩ => ⟨S1, .f32⟩
  | .local _ .vmem, ⟨16, _⟩ => ⟨S256x1, .f32⟩
  | .local _ .vmem, ⟨17, _⟩ => ⟨S1, .f32⟩
  | .local _ .vmem, ⟨18, _⟩ => ⟨S2048x259, .bf16⟩
  | .local _ .vmem, ⟨19, _⟩ => ⟨S2048x259, .bf16⟩
  | .local _ .vmem, ⟨20, _⟩ => ⟨S1024x2048, .f32⟩
  | .local _ .vmem, ⟨21, _⟩ => ⟨S1024x2048, .f32⟩
  | .local _ .vmem, ⟨22, _⟩ => ⟨S2048x259, .bf16⟩
  | .local _ .vmem, ⟨23, _⟩ => ⟨S2048x259, .bf16⟩
  | .local _ .vmem, ⟨24, _⟩ => ⟨S1024x259, .f32⟩
  | .local _ .vmem, ⟨25, _⟩ => ⟨S1024x259, .f32⟩
  | .local _ .vmem, ⟨26, _⟩ => ⟨S1024x259, .f32⟩
  | .local _ .vmem, ⟨27, _⟩ => ⟨S1024x128, .f32⟩
  | .local _ .vmem, ⟨28, _⟩ => ⟨S1024x128, .f32⟩
  | .local _ .vmem, ⟨29, _⟩ => ⟨S1024x256, .f32⟩
  | .local _ .vmem, ⟨30, _⟩ => ⟨S1024x256, .f32⟩
  | .local _ .vmem, ⟨31, _⟩ => ⟨S1024x8, .f32⟩
  | .local _ .vmem, ⟨32, _⟩ => ⟨S1024x8, .f32⟩
  | .local _ .vmem, ⟨33, _⟩ => ⟨S392x256, .f32⟩
  | .local _ .vmem, ⟨34, _⟩ => ⟨S256, .f32⟩
  | .local _ .vmem, ⟨35, _⟩ => ⟨S256x128, .f32⟩
  | .local _ .vmem, ⟨36, _⟩ => ⟨S128, .f32⟩
  | .local _ .vmem, ⟨37, _⟩ => ⟨S1024x128, .f32⟩
  | .local _ .vmem, ⟨38, _⟩ => ⟨S1024x128, .f32⟩
  | _, _ => ⟨S2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_cst : Ref sig .tc := ⟨.hbm, 46, rfl⟩
abbrev main_call0_v15 : Ref sig .tc := ⟨.hbm, 47, rfl⟩
abbrev main_v4 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_call1_cst : Ref sig .tc := ⟨.hbm, 69, rfl⟩
abbrev main_call1_v15 : Ref sig .tc := ⟨.hbm, 70, rfl⟩
abbrev main_v5 : Ref sig .tc := ⟨.hbm, 71, rfl⟩
abbrev main_v6 : Ref sig .tc := ⟨.hbm, 72, rfl⟩
abbrev main_v7 : Ref sig .tc := ⟨.hbm, 73, rfl⟩
abbrev main_cst : Ref sig .tc := ⟨.hbm, 74, rfl⟩
abbrev main_v8 : Ref sig .tc := ⟨.hbm, 75, rfl⟩
abbrev main_v9 : Ref sig .tc := ⟨.hbm, 76, rfl⟩
abbrev main_v10 : Ref sig .tc := ⟨.hbm, 77, rfl⟩
abbrev main_call2_c : Ref sig .tc := ⟨.hbm, 78, rfl⟩
abbrev main_call2_v0 : Ref sig .tc := ⟨.hbm, 79, rfl⟩
abbrev main_call2_v1 : Ref sig .tc := ⟨.hbm, 80, rfl⟩
abbrev main_call2_c_0 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_c_1 : Ref sig .tc := ⟨.hbm, 86, rfl⟩
abbrev main_call2_c_2 : Ref sig .tc := ⟨.hbm, 87, rfl⟩
abbrev main_call2_v6 : Ref sig .tc := ⟨.hbm, 88, rfl⟩
abbrev main_call2_v7 : Ref sig .tc := ⟨.hbm, 89, rfl⟩
abbrev main_call2_v8 : Ref sig .tc := ⟨.hbm, 90, rfl⟩
abbrev main_call2_v9 : Ref sig .tc := ⟨.hbm, 91, rfl⟩
abbrev main_call2_v10 : Ref sig .tc := ⟨.hbm, 92, rfl⟩
abbrev main_call2_v11 : Ref sig .tc := ⟨.hbm, 93, rfl⟩
abbrev main_call2_c_3 : Ref sig .tc := ⟨.hbm, 94, rfl⟩
abbrev main_call2_v12 : Ref sig .tc := ⟨.hbm, 95, rfl⟩
abbrev main_call2_v13 : Ref sig .tc := ⟨.hbm, 96, rfl⟩
abbrev main_call2_v14 : Ref sig .tc := ⟨.hbm, 97, rfl⟩
abbrev main_call2_cst : Ref sig .tc := ⟨.hbm, 98, rfl⟩
abbrev main_call2_v15 : Ref sig .tc := ⟨.hbm, 99, rfl⟩
abbrev main_v11 : Ref sig .tc := ⟨.hbm, 100, rfl⟩
abbrev main_call3_c : Ref sig .tc := ⟨.hbm, 101, rfl⟩
abbrev main_call3_v0 : Ref sig .tc := ⟨.hbm, 102, rfl⟩
abbrev main_call3_v1 : Ref sig .tc := ⟨.hbm, 103, rfl⟩
abbrev main_call3_c_0 : Ref sig .tc := ⟨.hbm, 104, rfl⟩
abbrev main_call3_v2 : Ref sig .tc := ⟨.hbm, 105, rfl⟩
abbrev main_call3_v3 : Ref sig .tc := ⟨.hbm, 106, rfl⟩
abbrev main_call3_v4 : Ref sig .tc := ⟨.hbm, 107, rfl⟩
abbrev main_call3_v5 : Ref sig .tc := ⟨.hbm, 108, rfl⟩
abbrev main_call3_c_1 : Ref sig .tc := ⟨.hbm, 109, rfl⟩
abbrev main_call3_c_2 : Ref sig .tc := ⟨.hbm, 110, rfl⟩
abbrev main_call3_v6 : Ref sig .tc := ⟨.hbm, 111, rfl⟩
abbrev main_call3_v7 : Ref sig .tc := ⟨.hbm, 112, rfl⟩
abbrev main_call3_v8 : Ref sig .tc := ⟨.hbm, 113, rfl⟩
abbrev main_call3_v9 : Ref sig .tc := ⟨.hbm, 114, rfl⟩
abbrev main_call3_v10 : Ref sig .tc := ⟨.hbm, 115, rfl⟩
abbrev main_call3_v11 : Ref sig .tc := ⟨.hbm, 116, rfl⟩
abbrev main_call3_c_3 : Ref sig .tc := ⟨.hbm, 117, rfl⟩
abbrev main_call3_v12 : Ref sig .tc := ⟨.hbm, 118, rfl⟩
abbrev main_call3_v13 : Ref sig .tc := ⟨.hbm, 119, rfl⟩
abbrev main_call3_v14 : Ref sig .tc := ⟨.hbm, 120, rfl⟩
abbrev main_call3_cst : Ref sig .tc := ⟨.hbm, 121, rfl⟩
abbrev main_call3_v15 : Ref sig .tc := ⟨.hbm, 122, rfl⟩
abbrev main_v12 : Ref sig .tc := ⟨.hbm, 123, rfl⟩
abbrev main_v13 : Ref sig .tc := ⟨.hbm, 124, rfl⟩
abbrev main_v14 : Ref sig .tc := ⟨.hbm, 125, rfl⟩
abbrev main_v15 : Ref sig .tc := ⟨.hbm, 126, rfl⟩
abbrev main_v16 : Ref sig .tc := ⟨.hbm, 127, rfl⟩
abbrev main_v17 : Ref sig .tc := ⟨.hbm, 128, rfl⟩
abbrev main_v18 : Ref sig .tc := ⟨.hbm, 129, rfl⟩
abbrev main_v19 : Ref sig .tc := ⟨.hbm, 130, rfl⟩
abbrev main_v20 : Ref sig .tc := ⟨.hbm, 131, rfl⟩
abbrev main_v21 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_scratch0 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg2_1 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg7_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem4_0 : DmaSem sig := 33
abbrev cc2_sem5_0 : DmaSem sig := 34
abbrev cc2_sem6_0 : DmaSem sig := 35
abbrev cc2_sem7_0 : DmaSem sig := 36
abbrev cc2_sem7_1 : DmaSem sig := 37

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x261 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S261x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S261x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S2048x259 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨2, ![2, 32], ![false, false]⟩

def k1_cond2 (i : grid1.Coords) : BitVec 1 :=
  let arg1 : BitVec 32 := BitVec.ofNat 32 (i 1).val
  let c31_i32 : BitVec 32 := 31#32
  let v13 : BitVec 1 := Scalar.cmpi .eq arg1 c31_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x259 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x259 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x8 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S392x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1024x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S65536x2_S65536x1_0_0 : S65536x2.Slices ![0, 0] S65536x1
  shapeCasts_S65536x1_S65536 : S65536x1.ShapeCasts S65536
  slices_S65536x2_S65536x1_0_1 : S65536x2.Slices ![0, 1] S65536x1
  bcast_S_S65536 : S_.BroadcastsInDim S65536 (![] : Fin 0 → Fin S65536.rank)
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  reducesTo_S65536x1_S65536_d1 : S65536x1.ReducesTo [1] S65536
  h_S_ : 0 < S_.numel
  bcast_S65536_S65536x3_0 : S65536.BroadcastsInDim S65536x3 (![0] : Fin 1 → Fin S65536x3.rank)
  bcast_S_S65536x3 : S_.BroadcastsInDim S65536x3 (![] : Fin 0 → Fin S65536x3.rank)
  reducesTo_S65536x3_S65536_d1 : S65536x3.ReducesTo [1] S65536
  bcast_S65536_S65536x128_0 : S65536.BroadcastsInDim S65536x128 (![0] : Fin 1 → Fin S65536x128.rank)
  bcast_S_S65536x128 : S_.BroadcastsInDim S65536x128 (![] : Fin 0 → Fin S65536x128.rank)
  concatenates_S65536x128_S65536x128_S65536x256_d1 : Shape.Concatenates [S65536x128, S65536x128] S65536x256 1
  concatenates_S65536x256_S65536x1_S65536x4_S65536x261_d1 : Shape.Concatenates [S65536x256, S65536x1, S65536x4] S65536x261 1
  inb_S2048x261_S2048x261_0_0 : ∀ a, (![0, 0] : Fin 2 → Nat) a + S2048x261.size a ≤ S2048x261.size a
  h_S2048x261 : 0 < S2048x261.numel
  shapeCasts_S2048x261_S2048x261 : S2048x261.ShapeCasts S2048x261
  bitsLt_bf16_f32 : FTy.bits .bf16 < FTy.bits .f32
  inb_S261x256_S261x256_0_0 : ∀ a, (![0, 0] : Fin 2 → Nat) a + S261x256.size a ≤ S261x256.size a
  h_S261x256 : 0 < S261x256.numel
  inb_S256x256_S256x256_0_0 : ∀ a, (![0, 0] : Fin 2 → Nat) a + S256x256.size a ≤ S256x256.size a
  h_S256x256 : 0 < S256x256.numel
  inb_S256x1_S256x1_0_0 : ∀ a, (![0, 0] : Fin 2 → Nat) a + S256x1.size a ≤ S256x1.size a
  h_S256x1 : 0 < S256x1.numel
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  inb_S1_S1_0 : ∀ a, (![0] : Fin 1 → Nat) a + S1.size a ≤ S1.size a
  h_S1 : 0 < S1.numel
  shapeCasts_S1_S1x1 : S1.ShapeCasts S1x1
  broadcasts_S1x1_S2048x1 : S1x1.Broadcasts S2048x1
  broadcasts_S2048x1_S2048x256 : S2048x1.Broadcasts S2048x256
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x3_S2048x3_0_0 : ∀ a, (![0, 0] : Fin 2 → Nat) a + S2048x3.size a ≤ S2048x3.size a
  h_S2048x3 : 0 < S2048x3.numel
  shapeCasts_S2048x3_S2048x3 : S2048x3.ShapeCasts S2048x3
  broadcasts_S2048x1_S2048x3 : S2048x1.Broadcasts S2048x3
  concatenates_S2048x256_S2048x3_S2048x259_d1 : Shape.Concatenates [S2048x256, S2048x3] S2048x259 1
  inb_S2048x259_S2048x259_0_0 : ∀ a, (![0, 0] : Fin 2 → Nat) a + S2048x259.size a ≤ S2048x259.size a
  h_S2048x259 : 0 < S2048x259.numel
  packedbf16_S2048x259_S2048x259_0_0 : (Rect.unit (s := S2048x259) ![0, 0] S2048x259.size inb_S2048x259_S2048x259_0_0).PackedRows (EltTy.packing .bf16)
  inb_S1024x259_S1024x259_0_0 : ∀ a, (![0, 0] : Fin 2 → Nat) a + S1024x259.size a ≤ S1024x259.size a
  h_S1024x259 : 0 < S1024x259.numel
  shapeCasts_S1024x259_S1024x259 : S1024x259.ShapeCasts S1024x259
  inb_S1024x2048_S1024x2048_0_0 : ∀ a, (![0, 0] : Fin 2 → Nat) a + S1024x2048.size a ≤ S1024x2048.size a
  h_S1024x2048 : 0 < S1024x2048.numel
  shapeCasts_S2048x259_S2048x259 : S2048x259.ShapeCasts S2048x259
  slices_S2048x259_S2048x256_0_0 : S2048x259.Slices ![0, 0] S2048x256
  slices_S2048x259_S2048x3_0_256 : S2048x259.Slices ![0, 256] S2048x3
  inb_S1024x128_S1024x128_0_0 : ∀ a, (![0, 0] : Fin 2 → Nat) a + S1024x128.size a ≤ S1024x128.size a
  h_S1024x128 : 0 < S1024x128.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x8_S1024x8_0_0 : ∀ a, (![0, 0] : Fin 2 → Nat) a + S1024x8.size a ≤ S1024x8.size a
  h_S1024x8 : 0 < S1024x8.numel
  concatenates_S1024x128_S1024x256_S1024x8_S1024x392_d1 : Shape.Concatenates [S1024x128, S1024x256, S1024x8] S1024x392 1
  inb_S392x256_S392x256_0_0 : ∀ a, (![0, 0] : Fin 2 → Nat) a + S392x256.size a ≤ S392x256.size a
  h_S392x256 : 0 < S392x256.numel
  inb_S256x128_S256x128_0_0 : ∀ a, (![0, 0] : Fin 2 → Nat) a + S256x128.size a ≤ S256x128.size a
  h_S256x128 : 0 < S256x128.numel
  broadcasts_S1x256_S1024x256 : S1x256.Broadcasts S1024x256
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  gather_S2048x3_S65536x1_S65536x3_1_0_n_n_0_1_13_wf : GatherDims.WF S2048x3 S65536x1 S65536x3 [1] [0] [] [0] [] 1 ![1, 3]
  gather_S2048x128_S65536x1_S65536x128_1_0_n_n_0_1_1128_wf : GatherDims.WF S2048x128 S65536x1 S65536x128 [1] [0] [] [0] [] 1 ![1, 128]
  dot_S2048x261_S261x256_S2048x256_1_0_0_1_n_n_wf : DotDims.WF S2048x261 S261x256 S2048x256 [1] [0] [0] [1] [] []
  dot_S2048x256_S256x256_S2048x256_1_0_0_1_n_n_wf : DotDims.WF S2048x256 S256x256 S2048x256 [1] [0] [0] [1] [] []
  dot_S2048x256_S256x1_S2048x1_1_0_0_1_n_n_wf : DotDims.WF S2048x256 S256x1 S2048x1 [1] [0] [0] [1] [] []
  dot_S1024x2048_S2048x259_S1024x259_1_0_0_1_n_n_wf : DotDims.WF S1024x2048 S2048x259 S1024x259 [1] [0] [0] [1] [] []
  dot_S1024x392_S392x256_S1024x256_1_0_0_1_n_n_wf : DotDims.WF S1024x392 S392x256 S1024x256 [1] [0] [0] [1] [] []
  dot_S1024x256_S256x128_S1024x128_1_0_0_1_n_n_wf : DotDims.WF S1024x256 S256x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x261.size a ≤ S65536x261.size a
  hwx0_0 : ∀ i : grid0.Coords, EltTy.bits .f32 = 32 ∨ (Rect.block (s := S65536x261) S2048x261.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x3.size a ≤ S65536x3.size a
  hwx0_1 : ∀ i : grid0.Coords, EltTy.bits .f32 = 32 ∨ (Rect.block (s := S65536x3) S2048x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S65536x1.size a
  hwx0_2 : ∀ i : grid0.Coords, EltTy.bits .f32 = 32 ∨ (Rect.block (s := S65536x1) S2048x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S261x256.size a ≤ S261x256.size a
  hwx0_3 : ∀ i : grid0.Coords, EltTy.bits .f32 = 32 ∨ (Rect.block (s := S261x256) S261x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S261x256.size a ≤ S261x256.size a
  hwx0_7 : ∀ i : grid0.Coords, EltTy.bits .f32 = 32 ∨ (Rect.block (s := S261x256) S261x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .f32 = 32 ∨ (Rect.block (s := S256x256) S256x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x1.size a ≤ S256x1.size a
  hwx0_11 : ∀ i : grid0.Coords, EltTy.bits .f32 = 32 ∨ (Rect.block (s := S256x1) S256x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1.size a ≤ S1.size a
  hwx0_12 : ∀ i : grid0.Coords, EltTy.bits .f32 = 32 ∨ (Rect.block (s := S1) S1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x1.size a ≤ S256x1.size a
  hwx0_13 : ∀ i : grid0.Coords, EltTy.bits .f32 = 32 ∨ (Rect.block (s := S256x1) S256x1.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1.size a ≤ S1.size a
  hwx0_14 : ∀ i : grid0.Coords, EltTy.bits .f32 = 32 ∨ (Rect.block (s := S1) S1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2048x259.size a ≤ S65536x259.size a
  hwx0_15 : ∀ i : grid0.Coords, EltTy.bits .bf16 = 32 ∨ (Rect.block (s := S65536x259) S2048x259.size (cc0_transform_15 i) (hinb0_15 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S2048x65536.size a
  hwx1_0 : ∀ i : grid1.Coords, EltTy.bits .f32 = 32 ∨ (Rect.block (s := S2048x65536) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x259.size a ≤ S65536x259.size a
  hwx1_1 : ∀ i : grid1.Coords, EltTy.bits .bf16 = 32 ∨ (Rect.block (s := S65536x259) S2048x259.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x259.size a ≤ S2048x259.size a
  hwx1_2 : ∀ i : grid1.Coords, EltTy.bits .f32 = 32 ∨ (Rect.block (s := S2048x259) S1024x259.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S2048x128.size a
  hwx2_0 : ∀ i : grid2.Coords, EltTy.bits .f32 = 32 ∨ (Rect.block (s := S2048x128) S1024x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S2048x256.size a
  hwx2_1 : ∀ i : grid2.Coords, EltTy.bits .f32 = 32 ∨ (Rect.block (s := S2048x256) S1024x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x8.size a ≤ S2048x8.size a
  hwx2_2 : ∀ i : grid2.Coords, EltTy.bits .f32 = 32 ∨ (Rect.block (s := S2048x8) S1024x8.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S392x256.size a ≤ S392x256.size a
  hwx2_3 : ∀ i : grid2.Coords, EltTy.bits .f32 = 32 ∨ (Rect.block (s := S392x256) S392x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256.size a ≤ S256.size a
  hwx2_4 : ∀ i : grid2.Coords, EltTy.bits .f32 = 32 ∨ (Rect.block (s := S256) S256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x128.size a ≤ S256x128.size a
  hwx2_5 : ∀ i : grid2.Coords, EltTy.bits .f32 = 32 ∨ (Rect.block (s := S256x128) S256x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1024x128.size a ≤ S2048x128.size a
  hwx2_7 : ∀ i : grid2.Coords, EltTy.bits .f32 = 32 ∨ (Rect.block (s := S2048x128) S1024x128.size (cc2_transform_7 i) (hinb2_7 i)).WholeWords (EltTy.packing .f32)

variable [Facts₀]

def gather_S2048x3_S65536x1_S65536x3_1_0_n_n_0_1_13 : GatherDims S2048x3 S65536x1 S65536x3 where
  offsetDims := [1]
  collapsedSliceDims := [0]
  operandBatchingDims := []
  startIndicesBatchingDims := []
  startIndexMap := [0]
  indexVectorDim := 1
  sliceSizes := ![1, 3]
  wf := gather_S2048x3_S65536x1_S65536x3_1_0_n_n_0_1_13_wf
def gather_S2048x128_S65536x1_S65536x128_1_0_n_n_0_1_1128 : GatherDims S2048x128 S65536x1 S65536x128 where
  offsetDims := [1]
  collapsedSliceDims := [0]
  operandBatchingDims := []
  startIndicesBatchingDims := []
  startIndexMap := [0]
  indexVectorDim := 1
  sliceSizes := ![1, 128]
  wf := gather_S2048x128_S65536x1_S65536x128_1_0_n_n_0_1_1128_wf
def dot_S2048x261_S261x256_S2048x256_1_0_0_1_n_n : DotDims S2048x261 S261x256 S2048x256 where
  lhsContracting := [1]
  rhsContracting := [0]
  lhsNonContracting := [0]
  rhsNonContracting := [1]
  lhsBatch := []
  rhsBatch := []
  wf := dot_S2048x261_S261x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x1_S2048x1_1_0_0_1_n_n : DotDims S2048x256 S256x1 S2048x1 where
  lhsContracting := [1]
  rhsContracting := [0]
  lhsNonContracting := [0]
  rhsNonContracting := [1]
  lhsBatch := []
  rhsBatch := []
  wf := dot_S2048x256_S256x1_S2048x1_1_0_0_1_n_n_wf
def dot_S1024x2048_S2048x259_S1024x259_1_0_0_1_n_n : DotDims S1024x2048 S2048x259 S1024x259 where
  lhsContracting := [1]
  rhsContracting := [0]
  lhsNonContracting := [0]
  rhsNonContracting := [1]
  lhsBatch := []
  rhsBatch := []
  wf := dot_S1024x2048_S2048x259_S1024x259_1_0_0_1_n_n_wf
def dot_S1024x392_S392x256_S1024x256_1_0_0_1_n_n : DotDims S1024x392 S392x256 S1024x256 where
  lhsContracting := [1]
  rhsContracting := [0]
  lhsNonContracting := [0]
  rhsNonContracting := [1]
  lhsBatch := []
  rhsBatch := []
  wf := dot_S1024x392_S392x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

abbrev win0_0 : Pipeline.Window sig grid0 :=
  Pipeline.Window.ofSpec (Memref.whole main_v15) S2048x261.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S2048x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S261x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S261x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg11) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg12) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg13) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg14) S256x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg15) S1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg20) S256x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg21) S1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v16) S2048x259.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_arg3) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S2048x259.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1024x259.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg1) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S1024x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S1024x8.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg16) S392x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg17) S256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg18) S256x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg19) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v21) S1024x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S2048x3 : Shape := ⟨2, ![2048, 3]⟩
abbrev S2048x128 : Shape := ⟨2, ![2048, 128]⟩
abbrev S65536x2 : Shape := ⟨2, ![65536, 2]⟩
abbrev S2048x65536 : Shape := ⟨2, ![2048, 65536]⟩
abbrev S2048x8 : Shape := ⟨2, ![2048, 8]⟩
abbrev S65536x4 : Shape := ⟨2, ![65536, 4]⟩
abbrev S261x256 : Shape := ⟨2, ![261, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S392x256 : Shape := ⟨2, ![392, 256]⟩
abbrev S256x128 : Shape := ⟨2, ![256, 128]⟩
abbrev S128 : Shape := ⟨1, ![128]⟩
abbrev S_ : Shape := ⟨0, ![]⟩
abbrev S65536x2x1 : Shape := ⟨3, ![65536, 2, 1]⟩
abbrev S65536x2x3 : Shape := ⟨3, ![65536, 2, 3]⟩
abbrev S65536x2x128 : Shape := ⟨3, ![65536, 2, 128]⟩
abbrev S65536x256 : Shape := ⟨2, ![65536, 256]⟩
abbrev S65536x1x3 : Shape := ⟨3, ![65536, 1, 3]⟩
abbrev S65536x3 : Shape := ⟨2, ![65536, 3]⟩
abbrev S65536 : Shape := ⟨1, ![65536]⟩
abbrev S65536x1 : Shape := ⟨2, ![65536, 1]⟩
abbrev S65536x261 : Shape := ⟨2, ![65536, 261]⟩
abbrev S1x256 : Shape := ⟨2, ![1, 256]⟩
abbrev S1x1 : Shape := ⟨2, ![1, 1]⟩
abbrev S2048x256 : Shape := ⟨2, ![2048, 256]⟩
abbrev S2048x392 : Shape := ⟨2, ![2048, 392]⟩
abbrev S1x128 : Shape := ⟨2, ![1, 128]⟩

abbrev nBuf : Space → Nat
  | .hbm => 151
  | .vmem => 0
  | .smem => 0
  | _ => 0

abbrev hbmTy0_0 (i : Nat) : BufTy := match i % 128 with
  | 0 => ⟨S2048x3, .f32⟩
  | 1 => ⟨S2048x128, .f32⟩
  | 2 => ⟨S65536x2, .i32⟩
  | 3 => ⟨S2048x65536, .f32⟩
  | 4 => ⟨S2048x8, .f32⟩
  | 5 => ⟨S65536x4, .f32⟩
  | 6 => ⟨S261x256, .f32⟩
  | 7 => ⟨S256, .f32⟩
  | 8 => ⟨S256x256, .f32⟩
  | 9 => ⟨S256, .f32⟩
  | 10 => ⟨S261x256, .f32⟩
  | 11 => ⟨S256, .f32⟩
  | 12 => ⟨S256x256, .f32⟩
  | 13 => ⟨S256, .f32⟩
  | 14 => ⟨S256x1, .f32⟩
  | 15 => ⟨S1, .f32⟩
  | 16 => ⟨S392x256, .f32⟩
  | 17 => ⟨S256, .f32⟩
  | 18 => ⟨S256x128, .f32⟩
  | 19 => ⟨S128, .f32⟩
  | 20 => ⟨S256x1, .f32⟩
  | 21 => ⟨S1, .f32⟩
  | 22 => ⟨S_, .i32⟩
  | 23 => ⟨S65536x2, .i32⟩
  | 24 => ⟨S65536x2, .i1⟩
  | 25 => ⟨S_, .i32⟩
  | 26 => ⟨S65536x2, .i32⟩
  | 27 => ⟨S65536x2, .i32⟩
  | 28 => ⟨S65536x2, .i32⟩
  | 29 => ⟨S65536x2x1, .i32⟩
  | 30 => ⟨S65536x2x3, .f32⟩
  | 31 => ⟨S_, .i32⟩
  | 32 => ⟨S65536x2, .i32⟩
  | 33 => ⟨S65536x2, .i1⟩
  | 34 => ⟨S_, .i32⟩
  | 35 => ⟨S65536x2, .i32⟩
  | 36 => ⟨S65536x2, .i32⟩
  | 37 => ⟨S65536x2, .i32⟩
  | 38 => ⟨S65536x2x1, .i32⟩
  | 39 => ⟨S65536x2x128, .f32⟩
  | 40 => ⟨S65536x256, .f32⟩
  | 41 => ⟨S65536x1x3, .f32⟩
  | 42 => ⟨S65536x3, .f32⟩
  | 43 => ⟨S65536x1x3, .f32⟩
  | 44 => ⟨S65536x3, .f32⟩
  | 45 => ⟨S65536x3, .f32⟩
  | 46 => ⟨S65536x3, .f32⟩
  | 47 => ⟨S_, .f32⟩
  | 48 => ⟨S65536, .f32⟩
  | 49 => ⟨S65536x1, .f32⟩
  | 50 => ⟨S65536x1, .f32⟩
  | 51 => ⟨S65536x1, .f32⟩
  | 52 => ⟨S65536x261, .f32⟩
  | 53 => ⟨S65536x256, .f32⟩
  | 54 => ⟨S1x256, .f32⟩
  | 55 => ⟨S65536x256, .f32⟩
  | 56 => ⟨S65536x256, .f32⟩
  | 57 => ⟨S65536x256, .f32⟩
  | 58 => ⟨S65536x256, .f32⟩
  | 59 => ⟨S_, .f32⟩
  | 60 => ⟨S65536x256, .f32⟩
  | 61 => ⟨S65536x256, .f32⟩
  | 62 => ⟨S_, .f32⟩
  | 63 => ⟨S65536x256, .f32⟩
  | 64 => ⟨S65536x256, .f32⟩
  | 65 => ⟨S65536x256, .f32⟩
  | 66 => ⟨S65536x256, .f32⟩
  | 67 => ⟨S1x256, .f32⟩
  | 68 => ⟨S65536x256, .f32⟩
  | 69 => ⟨S65536x256, .f32⟩
  | 70 => ⟨S65536x256, .f32⟩
  | 71 => ⟨S65536x256, .f32⟩
  | 72 => ⟨S_, .f32⟩
  | 73 => ⟨S65536x256, .f32⟩
  | 74 => ⟨S65536x256, .f32⟩
  | 75 => ⟨S_, .f32⟩
  | 76 => ⟨S65536x256, .f32⟩
  | 77 => ⟨S65536x256, .f32⟩
  | 78 => ⟨S65536x256, .f32⟩
  | 79 => ⟨S65536x256, .f32⟩
  | 80 => ⟨S1x256, .f32⟩
  | 81 => ⟨S65536x256, .f32⟩
  | 82 => ⟨S65536x256, .f32⟩
  | 83 => ⟨S65536x256, .f32⟩
  | 84 => ⟨S65536x256, .f32⟩
  | 85 => ⟨S_, .f32⟩
  | 86 => ⟨S65536x256, .f32⟩
  | 87 => ⟨S65536x256, .f32⟩
  | 88 => ⟨S_, .f32⟩
  | 89 => ⟨S65536x256, .f32⟩
  | 90 => ⟨S65536x256, .f32⟩
  | 91 => ⟨S65536x256, .f32⟩
  | 92 => ⟨S65536x256, .f32⟩
  | 93 => ⟨S1x256, .f32⟩
  | 94 => ⟨S65536x256, .f32⟩
  | 95 => ⟨S65536x256, .f32⟩
  | 96 => ⟨S65536x256, .f32⟩
  | 97 => ⟨S65536x256, .f32⟩
  | 98 => ⟨S_, .f32⟩
  | 99 => ⟨S65536x256, .f32⟩
  | 100 => ⟨S65536x256, .f32⟩
  | 101 => ⟨S_, .f32⟩
  | 102 => ⟨S65536x256, .f32⟩
  | 103 => ⟨S65536x256, .f32⟩
  | 104 => ⟨S65536x256, .f32⟩
  | 105 => ⟨S65536x1, .f32⟩
  | 106 => ⟨S1x1, .f32⟩
  | 107 => ⟨S65536x1, .f32⟩
  | 108 => ⟨S65536x1, .f32⟩
  | 109 => ⟨S65536x1, .f32⟩
  | 110 => ⟨S1x1, .f32⟩
  | 111 => ⟨S65536x1, .f32⟩
  | 112 => ⟨S65536x1, .f32⟩
  | 113 => ⟨S65536x1, .f32⟩
  | 114 => ⟨S65536x1, .f32⟩
  | 115 => ⟨S_, .f32⟩
  | 116 => ⟨S65536x1, .f32⟩
  | 117 => ⟨S65536x1, .f32⟩
  | 118 => ⟨S_, .f32⟩
  | 119 => ⟨S65536x1, .f32⟩
  | 120 => ⟨S65536x1, .f32⟩
  | 121 => ⟨S65536x256, .f32⟩
  | 122 => ⟨S65536x256, .f32⟩
  | 123 => ⟨S2048x256, .f32⟩
  | 124 => ⟨S2048x392, .f32⟩
  | 125 => ⟨S2048x256, .f32⟩
  | 126 => ⟨S1x256, .f32⟩
  | 127 => ⟨S2048x256, .f32⟩
  | _ => ⟨S2048x3, .f32⟩

abbrev hbmTy0_1 (i : Nat) : BufTy := match i % 128 with
  | 0 => ⟨S2048x256, .f32⟩
  | 1 => ⟨S2048x256, .f32⟩
  | 2 => ⟨S2048x256, .f32⟩
  | 3 => ⟨S_, .f32⟩
  | 4 => ⟨S2048x256, .f32⟩
  | 5 => ⟨S2048x256, .f32⟩
  | 6 => ⟨S_, .f32⟩
  | 7 => ⟨S2048x256, .f32⟩
  | 8 => ⟨S2048x256, .f32⟩
  | 9 => ⟨S2048x256, .f32⟩
  | 10 => ⟨S2048x128, .f32⟩
  | 11 => ⟨S1x128, .f32⟩
  | 12 => ⟨S2048x128, .f32⟩
  | 13 => ⟨S2048x128, .f32⟩
  | 14 => ⟨S2048x128, .f32⟩
  | 15 => ⟨S_, .f32⟩
  | 16 => ⟨S65536x1, .f32⟩
  | 17 => ⟨S65536x1, .f32⟩
  | 18 => ⟨S65536x1, .f32⟩
  | 19 => ⟨S65536x3, .f32⟩
  | 20 => ⟨S65536x3, .f32⟩
  | 21 => ⟨S2048x3, .f32⟩
  | 22 => ⟨S2048x3, .f32⟩
  | _ => ⟨S2048x3, .f32⟩

abbrev hbmTy (i : Nat) : BufTy := match i / 128 with
  | 0 => hbmTy0_0 i
  | 1 => hbmTy0_1 i
  | _ => ⟨S2048x3, .f32⟩

abbrev bufTy : (tb : Table) → Fin (tcTables nBuf tb) → BufTy
  | .hbm, ⟨i, _⟩ => hbmTy i
  | _, _ => ⟨S2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_v0 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_c_1 : Ref sig .tc := ⟨.hbm, 31, rfl⟩
abbrev main_v7 : Ref sig .tc := ⟨.hbm, 32, rfl⟩
abbrev main_v8 : Ref sig .tc := ⟨.hbm, 33, rfl⟩
abbrev main_c_2 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_call0_v0 : Ref sig .tc := ⟨.hbm, 46, rfl⟩
abbrev main_call0_cst : Ref sig .tc := ⟨.hbm, 47, rfl⟩
abbrev main_call0_v1 : Ref sig .tc := ⟨.hbm, 48, rfl⟩
abbrev main_call0_v2 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_call1_v0 : Ref sig .tc := ⟨.hbm, 57, rfl⟩
abbrev main_call1_v1 : Ref sig .tc := ⟨.hbm, 58, rfl⟩
abbrev main_call1_cst : Ref sig .tc := ⟨.hbm, 59, rfl⟩
abbrev main_call1_v2 : Ref sig .tc := ⟨.hbm, 60, rfl⟩
abbrev main_call1_v3 : Ref sig .tc := ⟨.hbm, 61, rfl⟩
abbrev main_call1_cst_0 : Ref sig .tc := ⟨.hbm, 62, rfl⟩
abbrev main_call1_v4 : Ref sig .tc := ⟨.hbm, 63, rfl⟩
abbrev main_call1_v5 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_call2_v0 : Ref sig .tc := ⟨.hbm, 70, rfl⟩
abbrev main_call2_v1 : Ref sig .tc := ⟨.hbm, 71, rfl⟩
abbrev main_call2_cst : Ref sig .tc := ⟨.hbm, 72, rfl⟩
abbrev main_call2_v2 : Ref sig .tc := ⟨.hbm, 73, rfl⟩
abbrev main_call2_v3 : Ref sig .tc := ⟨.hbm, 74, rfl⟩
abbrev main_call2_cst_0 : Ref sig .tc := ⟨.hbm, 75, rfl⟩
abbrev main_call2_v4 : Ref sig .tc := ⟨.hbm, 76, rfl⟩
abbrev main_call2_v5 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_call3_v0 : Ref sig .tc := ⟨.hbm, 83, rfl⟩
abbrev main_call3_v1 : Ref sig .tc := ⟨.hbm, 84, rfl⟩
abbrev main_call3_cst : Ref sig .tc := ⟨.hbm, 85, rfl⟩
abbrev main_call3_v2 : Ref sig .tc := ⟨.hbm, 86, rfl⟩
abbrev main_call3_v3 : Ref sig .tc := ⟨.hbm, 87, rfl⟩
abbrev main_call3_cst_0 : Ref sig .tc := ⟨.hbm, 88, rfl⟩
abbrev main_call3_v4 : Ref sig .tc := ⟨.hbm, 89, rfl⟩
abbrev main_call3_v5 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_call4_v0 : Ref sig .tc := ⟨.hbm, 96, rfl⟩
abbrev main_call4_v1 : Ref sig .tc := ⟨.hbm, 97, rfl⟩
abbrev main_call4_cst : Ref sig .tc := ⟨.hbm, 98, rfl⟩
abbrev main_call4_v2 : Ref sig .tc := ⟨.hbm, 99, rfl⟩
abbrev main_call4_v3 : Ref sig .tc := ⟨.hbm, 100, rfl⟩
abbrev main_call4_cst_0 : Ref sig .tc := ⟨.hbm, 101, rfl⟩
abbrev main_call4_v4 : Ref sig .tc := ⟨.hbm, 102, rfl⟩
abbrev main_call4_v5 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_cst : Ref sig .tc := ⟨.hbm, 115, rfl⟩
abbrev main_v53 : Ref sig .tc := ⟨.hbm, 116, rfl⟩
abbrev main_v54 : Ref sig .tc := ⟨.hbm, 117, rfl⟩
abbrev main_cst_3 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_call5_v0 : Ref sig .tc := ⟨.hbm, 129, rfl⟩
abbrev main_call5_v1 : Ref sig .tc := ⟨.hbm, 130, rfl⟩
abbrev main_call5_cst : Ref sig .tc := ⟨.hbm, 131, rfl⟩
abbrev main_call5_v2 : Ref sig .tc := ⟨.hbm, 132, rfl⟩
abbrev main_call5_v3 : Ref sig .tc := ⟨.hbm, 133, rfl⟩
abbrev main_call5_cst_0 : Ref sig .tc := ⟨.hbm, 134, rfl⟩
abbrev main_call5_v4 : Ref sig .tc := ⟨.hbm, 135, rfl⟩
abbrev main_call5_v5 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_cst_4 : Ref sig .tc := ⟨.hbm, 143, rfl⟩
abbrev main_v71 : Ref sig .tc := ⟨.hbm, 144, rfl⟩
abbrev main_v72 : Ref sig .tc := ⟨.hbm, 145, rfl⟩
abbrev main_v73 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_v77 : Ref sig .tc := ⟨.hbm, 150, rfl⟩

abbrev nD : Nat := 1
abbrev τ : Topo := Topo.v7x

variable {F : FTy → Type} [FloatOps F]

class Facts₀ : Prop where
  bcast_S_S65536x2 : S_.BroadcastsInDim S65536x2 (![] : Fin 0 → Fin S65536x2.rank)
  bcast_S65536x2_S65536x2x1_0_1 : S65536x2.BroadcastsInDim S65536x2x1 (![0, 1] : Fin 2 → Fin S65536x2x1.rank)
  shapeCasts_S65536x2x128_S65536x256 : S65536x2x128.ShapeCasts S65536x256
  slices_S65536x2x3_S65536x1x3_0_0_0 : S65536x2x3.Slices ![0, 0, 0] S65536x1x3
  shapeCasts_S65536x1x3_S65536x3 : S65536x1x3.ShapeCasts S65536x3
  slices_S65536x2x3_S65536x1x3_0_1_0 : S65536x2x3.Slices ![0, 1, 0] S65536x1x3
  reducesTo_S65536x3_S65536_d1 : S65536x3.ReducesTo [1] S65536
  h_S_ : 0 < S_.numel
  bcast_S65536_S65536x1_0 : S65536.BroadcastsInDim S65536x1 (![0] : Fin 1 → Fin S65536x1.rank)
  concatenates_S65536x256_S65536x1_S65536x4_S65536x261_d1 : Shape.Concatenates [S65536x256, S65536x1, S65536x4] S65536x261 1
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  bcast_S_S65536x1 : S_.BroadcastsInDim S65536x1 (![] : Fin 0 → Fin S65536x1.rank)
  bcast_S65536x1_S65536x256_0_1 : S65536x1.BroadcastsInDim S65536x256 (![0, 1] : Fin 2 → Fin S65536x256.rank)
  concatenates_S2048x128_S2048x256_S2048x8_S2048x392_d1 : Shape.Concatenates [S2048x128, S2048x256, S2048x8] S2048x392 1
  bcast_S1x256_S2048x256_0_1 : S1x256.BroadcastsInDim S2048x256 (![0, 1] : Fin 2 → Fin S2048x256.rank)
  bcast_S_S2048x256 : S_.BroadcastsInDim S2048x256 (![] : Fin 0 → Fin S2048x256.rank)
  bcast_S128_S1x128_1 : S128.BroadcastsInDim S1x128 (![1] : Fin 1 → Fin S1x128.rank)
  bcast_S1x128_S2048x128_0_1 : S1x128.BroadcastsInDim S2048x128 (![0, 1] : Fin 2 → Fin S2048x128.rank)
  bcast_S65536x1_S65536x3_0_1 : S65536x1.BroadcastsInDim S65536x3 (![0, 1] : Fin 2 → Fin S65536x3.rank)
  gather_S2048x3_S65536x2x1_S65536x2x3_2_0_n_n_0_2_13_wf : GatherDims.WF S2048x3 S65536x2x1 S65536x2x3 [2] [0] [] [0] [] 2 ![1, 3]
  gather_S2048x128_S65536x2x1_S65536x2x128_2_0_n_n_0_2_1128_wf : GatherDims.WF S2048x128 S65536x2x1 S65536x2x128 [2] [0] [] [0] [] 2 ![1, 128]
  dot_S65536x261_S261x256_S65536x256_1_0_0_1_n_n_wf : DotDims.WF S65536x261 S261x256 S65536x256 [1] [0] [0] [1] [] []
  dot_S65536x256_S256x256_S65536x256_1_0_0_1_n_n_wf : DotDims.WF S65536x256 S256x256 S65536x256 [1] [0] [0] [1] [] []
  dot_S65536x256_S256x1_S65536x1_1_0_0_1_n_n_wf : DotDims.WF S65536x256 S256x1 S65536x1 [1] [0] [0] [1] [] []
  dot_S2048x65536_S65536x256_S2048x256_1_0_0_1_n_n_wf : DotDims.WF S2048x65536 S65536x256 S2048x256 [1] [0] [0] [1] [] []
  dot_S2048x392_S392x256_S2048x256_1_0_0_1_n_n_wf : DotDims.WF S2048x392 S392x256 S2048x256 [1] [0] [0] [1] [] []
  dot_S2048x256_S256x128_S2048x128_1_0_0_1_n_n_wf : DotDims.WF S2048x256 S256x128 S2048x128 [1] [0] [0] [1] [] []
  dot_S2048x65536_S65536x3_S2048x3_1_0_0_1_n_n_wf : DotDims.WF S2048x65536 S65536x3 S2048x3 [1] [0] [0] [1] [] []

variable [Facts₀]

def gather_S2048x3_S65536x2x1_S65536x2x3_2_0_n_n_0_2_13 : GatherDims S2048x3 S65536x2x1 S65536x2x3 where
  offsetDims := [2]
  collapsedSliceDims := [0]
  operandBatchingDims := []
  startIndicesBatchingDims := []
  startIndexMap := [0]
  indexVectorDim := 2
  sliceSizes := ![1, 3]
  wf := gather_S2048x3_S65536x2x1_S65536x2x3_2_0_n_n_0_2_13_wf
def gather_S2048x128_S65536x2x1_S65536x2x128_2_0_n_n_0_2_1128 : GatherDims S2048x128 S65536x2x1 S65536x2x128 where
  offsetDims := [2]
  collapsedSliceDims := [0]
  operandBatchingDims := []
  startIndicesBatchingDims := []
  startIndexMap := [0]
  indexVectorDim := 2
  sliceSizes := ![1, 128]
  wf := gather_S2048x128_S65536x2x1_S65536x2x128_2_0_n_n_0_2_1128_wf
def dot_S65536x261_S261x256_S65536x256_1_0_0_1_n_n : DotDims S65536x261 S261x256 S65536x256 where
  lhsContracting := [1]
  rhsContracting := [0]
  lhsNonContracting := [0]
  rhsNonContracting := [1]
  lhsBatch := []
  rhsBatch := []
  wf := dot_S65536x261_S261x256_S65536x256_1_0_0_1_n_n_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S65536x256_S256x1_S65536x1_1_0_0_1_n_n : DotDims S65536x256 S256x1 S65536x1 where
  lhsContracting := [1]
  rhsContracting := [0]
  lhsNonContracting := [0]
  rhsNonContracting := [1]
  lhsBatch := []
  rhsBatch := []
  wf := dot_S65536x256_S256x1_S65536x1_1_0_0_1_n_n_wf
def dot_S2048x65536_S65536x256_S2048x256_1_0_0_1_n_n : DotDims S2048x65536 S65536x256 S2048x256 where
  lhsContracting := [1]
  rhsContracting := [0]
  lhsNonContracting := [0]
  rhsNonContracting := [1]
  lhsBatch := []
  rhsBatch := []
  wf := dot_S2048x65536_S65536x256_S2048x256_1_0_0_1_n_n_wf
def dot_S2048x392_S392x256_S2048x256_1_0_0_1_n_n : DotDims S2048x392 S392x256 S2048x256 where
  lhsContracting := [1]
  rhsContracting := [0]
  lhsNonContracting := [0]
  rhsNonContracting := [1]
  lhsBatch := []
  rhsBatch := []
  wf := dot_S2048x392_S392x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x65536_S65536x3_S2048x3_1_0_0_1_n_n : DotDims S2048x65536 S65536x3 S2048x3 where
  lhsContracting := [1]
  rhsContracting := [0]
  lhsNonContracting := [0]
  rhsNonContracting := [1]
  lhsBatch := []
  rhsBatch := []
  wf := dot_S2048x65536_S65536x3_S2048x3_1_0_0_1_n_n_wf

class Facts : Prop extends Facts₀ where

variable [Facts]
-- ==== Proof.KBReg0Data.lean ====
import proofs.«411533_j19043884990716_1_alg».proof.Proof.Gen.Kernel.Launch
import proofs.«411533_j19043884990716_1_alg».proof.Proof.Gen.Kernel.Skeleton
import proofs.«411533_j19043884990716_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe
open Idealize.SL Idealize.SL.RA
open Idealize.ShloMosaic.Pipeline (Dat)

variable {F : FTy → Type} [FloatOps F]
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rl0_S2048x261 : Rect S2048x261 := Rect.unit (s := S2048x261) ![0, 0] S2048x261.size inb_S2048x261_S2048x261_0_0
abbrev rl0_S2048x3 : Rect S2048x3 := Rect.unit (s := S2048x3) ![0, 0] S2048x3.size inb_S2048x3_S2048x3_0_0
abbrev rl0_S2048x1 : Rect S2048x1 := Rect.unit (s := S2048x1) ![0, 0] S2048x1.size inb_S2048x1_S2048x1_0_0
abbrev rl0_S261x256 : Rect S261x256 := Rect.unit (s := S261x256) ![0, 0] S261x256.size inb_S261x256_S261x256_0_0
abbrev rl0_S256 : Rect S256 := Rect.unit (s := S256) ![0] S256.size inb_S256_S256_0
abbrev rl0_S256x256 : Rect S256x256 := Rect.unit (s := S256x256) ![0, 0] S256x256.size inb_S256x256_S256x256_0_0
abbrev rl0_S256x1 : Rect S256x1 := Rect.unit (s := S256x1) ![0, 0] S256x1.size inb_S256x1_S256x1_0_0
abbrev rl0_S1 : Rect S1 := Rect.unit (s := S1) ![0] S1.size inb_S1_S1_0

abbrev r0_0 : Rect S2048x259 := Rect.unit (s := S2048x259) ![0, 0] S2048x259.size inb_S2048x259_S2048x259_0_0

def out0_15 (x0 : Vec F S2048x261 .f32) (x1 : Vec F S2048x3 .f32) (x2 : Vec F S2048x1 .f32) (x3 : Vec F S261x256 .f32) (x4 : Vec F S256 .f32) (x5 : Vec F S256x256 .f32) (x6 : Vec F S256 .f32) (x7 : Vec F S261x256 .f32) (x8 : Vec F S256 .f32) (x9 : Vec F S256x256 .f32) (x10 : Vec F S256 .f32) (x11 : Vec F S256x1 .f32) (x12 : Vec F S1 .f32) (x13 : Vec F S256x1 .f32) (x14 : Vec F S1 .f32) : Vec F S2048x259 .bf16 :=
  View.canon [⟨r0_0, k0_pay1 (k0_pay3 (View.ld x9 rl0_S256x256)) (k0_pay4 (View.ld x11 rl0_S256x1)) (k0_pay5 (View.ld x13 rl0_S256x1))
    (k0_pay6 (View.ld x0 rl0_S2048x261) (View.ld x3 rl0_S261x256) (View.ld x5 rl0_S256x256) (View.ld x4 rl0_S256) (View.ld x6 rl0_S256))
    (k0_pay7 (View.ld x0 rl0_S2048x261) (View.ld x7 rl0_S261x256) (View.ld x8 rl0_S256))
    (constant S2048x256 .f32 0x00000000#32)
    (View.ld x10 rl0_S256) (View.ld x12 rl0_S1) (View.ld x14 rl0_S1) (View.ld x2 rl0_S2048x1) (View.ld x1 rl0_S2048x3)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)
    | ⟨_ + 16, h⟩ => absurd h (Nat.not_lt.2 (Nat.le_add_left _ _))
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_15 (c : Dev nD) (t : Fin cfg0.N) : (dat0 V c).after 15 t = out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) := by dsimp only [dat0]

end Cert.Kernel.Hand

end
-- ==== Proof.KBReg0Body.lean ====
import proofs.«411533_j19043884990716_1_alg».proof.Proof.KBReg0Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]
variable (V : (c : Dev nD) → (b : Ref sig .tc) → Buf (Elt F) ((c : Thread nD τ).loc b))

local notation "𝕄" => MT nD τ sig Unit (Elt F) ℕ (UR sig nD τ) ℕ

-- A single piece over the whole shape covers every index, so what is read after the writes is `View.canon` of that piece.
theorem sound_kernel0 (c : Dev nD) (E : Set ℕ) (i : grid0.Coords) (arg1 : Memref sig .tc .vmem S2048x261 .f32) (harg1 : arg1.IsWhole) (arg2 : Memref sig .tc .vmem S2048x3 .f32) (harg2 : arg2.IsWhole) (arg3 : Memref sig .tc .vmem S2048x1 .f32) (harg3 : arg3.IsWhole) (arg4 : Memref sig .tc .vmem S261x256 .f32) (harg4 : arg4.IsWhole) (arg5 : Memref sig .tc .vmem S256 .f32) (harg5 : arg5.IsWhole) (arg6 : Memref sig .tc .vmem S256x256 .f32) (harg6 : arg6.IsWhole) (arg7 : Memref sig .tc .vmem S256 .f32) (harg7 : arg7.IsWhole) (arg8 : Memref sig .tc .vmem S261x256 .f32) (harg8 : arg8.IsWhole) (arg9 : Memref sig .tc .vmem S256 .f32) (harg9 : arg9.IsWhole) (arg10 : Memref sig .tc .vmem S256x256 .f32) (harg10 : arg10.IsWhole) (arg11 : Memref sig .tc .vmem S256 .f32) (harg11 : arg11.IsWhole) (arg12 : Memref sig .tc .vmem S256x1 .f32) (harg12 : arg12.IsWhole) (arg13 : Memref sig .tc .vmem S1 .f32) (harg13 : arg13.IsWhole) (arg14 : Memref sig .tc .vmem S256x1 .f32) (harg14 : arg14.IsWhole) (arg15 : Memref sig .tc .vmem S1 .f32) (harg15 : arg15.IsWhole) (arg16 : Memref sig .tc .vmem S2048x259 .bf16) (harg16 : arg16.IsWhole)
    (x0 : Vec F S2048x261 .f32) (x1 : Vec F S2048x3 .f32) (x2 : Vec F S2048x1 .f32) (x3 : Vec F S261x256 .f32) (x4 : Vec F S256 .f32) (x5 : Vec F S256x256 .f32) (x6 : Vec F S256 .f32) (x7 : Vec F S261x256 .f32) (x8 : Vec F S256 .f32) (x9 : Vec F S256x256 .f32) (x10 : Vec F S256 .f32) (x11 : Vec F S256x1 .f32) (x12 : Vec F S1 .f32) (x13 : Vec F S256x1 .f32) (x14 : Vec F S1 .f32) (K : PUnit → sProp 𝕄) (I : sProp 𝕄)
    (hI : I = iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare x9 ∗ owns c arg11 fullShare x10 ∗ owns c arg12 fullShare x11 ∗ owns c arg13 fullShare x12 ∗ owns c arg14 fullShare x13 ∗ owns c arg15 fullShare x14)) :
    iprop(I ∗ (∃ d, owns c arg16 fullShare d) ∗ (iprop(I ∗ owns c arg16 fullShare (out0_15 x0 x1 x2 x3 x4 x5 x6 x7 x8 x9 x10 x11 x12 x13 x14)) -∗ K ⟨⟩))
      ⊢ wp frame (wpE (defs₀ (F := F)) Variants.none c none) E (cc0__edge_coord_mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  subst hI
  simp only [cc0__edge_coord_mlp_kernel_eq_skeleton]; unfold cc0__edge_coord_mlp_kernel_skel
  simp only [k0_part1_eq_skeleton]; unfold k0_part1_skel owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, ⟨%d15, %f15, -, H15⟩, Hk⟩
  subst hf0 hf1 hf2 hf3 hf4 hf5 hf6 hf7 hf8 hf9 hf10 hf11 hf12 hf13 hf14
  sl_exec
  sl_step
  iapply Hk
  isplitr [H15]
  · isplitl [H0]; · iexists f0; isplitr; ipureintro; rfl; iexact H0
    isplitl [H1]; · iexists f1; isplitr; ipureintro; rfl; iexact H1
    isplitl [H2]; · iexists f2; isplitr; ipureintro; rfl; iexact H2
    isplitl [H3]; · iexists f3; isplitr; ipureintro; rfl; iexact H3
    isplitl [H4]; · iexists f4; isplitr; ipureintro; rfl; iexact H4
    isplitl [H5]; · iexists f5; isplitr; ipureintro; rfl; iexact H5
    isplitl [H6]; · iexists f6; isplitr; ipureintro; rfl; iexact H6
    isplitl [H7]; · iexists f7; isplitr; ipureintro; rfl; iexact H7
    isplitl [H8]; · iexists f8; isplitr; ipureintro; rfl; iexact H8
    isplitl [H9]; · iexists f9; isplitr; ipureintro; rfl; iexact H9
    isplitl [H10]; · iexists f10; isplitr; ipureintro; rfl; iexact H10
    isplitl [H11]; · iexists f11; isplitr; ipureintro; rfl; iexact H11
    isplitl [H12]; · iexists f12; isplitr; ipureintro; rfl; iexact H12
    isplitl [H13]; · iexists f13; isplitr; ipureintro; rfl; iexact H13
    iexists f14; isplitr; ipureintro; rfl; iexact H14
  iexists _; isplitr; swap; iexact H15
  ipureintro; exact View.read_writes_eq_canon _ _ _ (View.cover_of_tiled [⟨r0_0, _⟩] S2048x259.size (by rfl))

-- An input window's block is the same before and after a grid point.
theorem before0 (c : Dev nD) (w : Fin cfg0.W) (hw : w ≠ 15) (t : Fin cfg0.N) (d) : (dat0 V c).before w t d = (dat0 V c).after w t := by
  fin_cases w <;> first | exact absurd rfl hw | exact (Dat.before_in_eq_fetched _ _ rfl (fun _ => rfl) (fun _ _ _ => rfl) (fun _ => rfl) t d).trans rfl

theorem body_obligation0 (c : Dev nD) : BodyObligation (dat0 (F := F) V c) (defs₀ (F := F)) Variants.none () Set.univ := fun t => by
  rw [bigSep_W0, bigSep_W0]
  show _ ⊢ wp _ _ _ (bodyAt0 t) _
  simp (disch := decide) only [before0 V c, show ∀ w i, cfg0.idle w i = false from fun _ _ => rfl]
  rw [show (dat0 V c).Φ t.succ = (dat0 V c).Φ t.castSucc from rfl, show (dat0 V c).owesAt () t.succ = (dat0 V c).owesAt () t.castSucc from rfl, after0_15]
  iintro ⟨HΦ, Ho, ⟨%_, H0⟩, ⟨%_, H1⟩, ⟨%_, H2⟩, ⟨%_, H3⟩, ⟨%_, H4⟩, ⟨%_, H5⟩, ⟨%_, H6⟩, ⟨%_, H7⟩, ⟨%_, H8⟩, ⟨%_, H9⟩, ⟨%_, H10⟩, ⟨%_, H11⟩, ⟨%_, H12⟩, ⟨%_, H13⟩, ⟨%_, H14⟩, ⟨%_, H15⟩⟩
  iapply sound_kernel0 c Set.univ (grid0.coords t) _ _ _ _ _ _ _ _ _ _ _ _ _ _ _ _ _ _ _ _ _ _ _ _ _ _ _ _ _ _ _ _ _ _ _ _ _ _ _ _ _ _ _ _ _ _ _ _ _ rfl
  isplitl [H0 H1 H2 H3 H4 H5 H6 H7 H8 H9 H10 H11 H12 H13 H14]; · iframe
  isplitl [H15]; · iexists _; iexact H15
  iintro ⟨⟨H0, H1, H2, H3, H4, H5, H6, H7, H8, H9, H10, H11, H12, H13, H14⟩, H15⟩
  iframe
  iapply H15

end Cert.Kernel.Hand

end
-- ==== Proof.KBReg1Data.lean ====
import proofs.«411533_j19043884990716_1_alg».proof.Proof.Gen.Kernel.Launch
import proofs.«411533_j19043884990716_1_alg».proof.Proof.Gen.Kernel.Skeleton
import proofs.«411533_j19043884990716_1_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev lblk1 (c : Dev nD) (t : Fin cfg1.N) : Vec F S1024x2048 .f32 := iblk1 V c 0 t
abbrev rblk1 (c : Dev nD) (t : Fin cfg1.N) : Vec F S2048x259 .bf16 := iblk1 V c 1 t

abbrev step1 (c : Dev nD) (t : Fin cfg1.N) (a : Vec F S1024x259 .f32) : Vec F S1024x259 .f32 :=
  k1_pay2 (lblk1 V c t) (rblk1 V c t) a

def outsAt1 (c : Dev nD) : (n : ℕ) → n < cfg1.N → Vec F S1024x259 .f32 × Vec F S1024x259 .f32
  | 0, hn => (step1 V c ⟨0, hn⟩ k1_pay1, step1 V c ⟨0, hn⟩ k1_pay1)
  | n + 1, hn =>
    if (n + 1) % 32 = 0 then (step1 V c ⟨n + 1, hn⟩ k1_pay1, step1 V c ⟨n + 1, hn⟩ k1_pay1)
    else (step1 V c ⟨n + 1, hn⟩ (outsAt1 c n (Nat.lt_of_succ_lt hn)).2, step1 V c ⟨n + 1, hn⟩ (outsAt1 c n (Nat.lt_of_succ_lt hn)).2)

theorem outsAt1_first (c : Dev nD) (t : Fin cfg1.N) (h0 : t.val % 32 = 0) :
    outsAt1 V c t.val t.isLt = (step1 V c t k1_pay1, step1 V c t k1_pay1) := by
  obtain ⟨n, hn⟩ := t
  cases n with
  | zero => exact rfl
  | succ n => exact (if_pos h0).trans rfl

theorem outsAt1_step (c : Dev nD) (t : Fin cfg1.N) (h0 : ¬t.val % 32 = 0) :
    outsAt1 V c t.val t.isLt
      = (step1 V c t (outsAt1 V c (t.val - 1) (Nat.lt_of_le_of_lt (Nat.sub_le _ _) t.isLt)).2,
         step1 V c t (outsAt1 V c (t.val - 1) (Nat.lt_of_le_of_lt (Nat.sub_le _ _) t.isLt)).2) := by
  obtain ⟨n, hn⟩ := t
  cases n with
  | zero => exact absurd (Nat.zero_mod _) h0
  | succ n => exact (if_neg h0).trans rfl

theorem outsAt1_last (c : Dev nD) (t : Fin cfg1.N) (h31 : t.val % 32 = 31) :
    outsAt1 V c t.val t.isLt
      = (step1 V c t (outsAt1 V c (t.val - 1) (Nat.lt_of_le_of_lt (Nat.sub_le _ _) t.isLt)).2,
         step1 V c t (outsAt1 V c (t.val - 1) (Nat.lt_of_le_of_lt (Nat.sub_le _ _) t.isLt)).2) :=
  outsAt1_step V c t (by omega)

abbrev scM1 : Memref sig .tc .vmem S1024x259 .f32 := Memref.whole cc1_scratch0

def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2)
      ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2)
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  ((dat1 V c).before_fetched 0 t (fetch1_0 t) d).trans
    (by unfold Dat.fetched Dat.blockOf iblk1; rw [A_eq1]; try rfl)
theorem before1_1 (c : Dev nD) (t : Fin cfg1.N) (d) : (dat1 V c).before 1 t d = iblk1 V c 1 t :=
  ((dat1 V c).before_fetched 1 t (fetch1_1 t) d).trans
    (by unfold Dat.fetched Dat.blockOf iblk1; rw [A_eq1]; try rfl)

end Cert.Kernel.Hand

end
-- ==== Proof.KBReg1Body.lean ====
import proofs.«411533_j19043884990716_1_alg».proof.Proof.KBReg1Data
import proofs.«411533_j19043884990716_1_alg».proof.Proof.Gen.Kernel.Regions
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 32 = 0 :=
  (by decide +kernel : ∀ t : Fin grid1.N, cond1_0 (grid1.coords t) ↔ t.val % 32 = 0)

abbrev cond1_1 (i : grid1.Coords) : Prop := k1_cond2 i = 1#1

theorem hcond1_1 : ∀ t : Fin cfg1.N, cond1_1 (grid1.coords t) ↔ t.val % 32 = 31 :=
  (by decide +kernel : ∀ t : Fin grid1.N, cond1_1 (grid1.coords t) ↔ t.val % 32 = 31)

theorem hz2 : (![0, 0] : Fin 2 → ℕ) = fun _ => 0 := by
  funext a; fin_cases a <;> rfl

-- A piece over the whole shape at the head of the list decides every index.
theorem read_top {κ sp} (v : View sig κ sp S1024x259 .f32) (f : v.ty.Contents (Elt F)) (w) (L) :
    v.read (Elt F) (v.writes (Elt F) f (⟨Rect.unit ![0, 0] S1024x259.size inb_S1024x259_S1024x259_0_0, w⟩ :: L)) = w := by
  rw [View.read_writes_eq_canon _ _ _ (fun y => ⟨_, List.mem_cons_self, View.mem_set_unit_zero hz2 inb_S1024x259_S1024x259_0_0 y⟩),
    View.canon_cons_unit_zero hz2]

section
variable (c : Dev nD) (E : Set ℕ) (i : grid1.Coords)
  (arg2 : Memref sig .tc .vmem S1024x2048 .f32) (harg2 : arg2.IsWhole) (arg3 : Memref sig .tc .vmem S2048x259 .bf16) (harg3 : arg3.IsWhole)
  (arg4 : Memref sig .tc .vmem S1024x259 .f32) (harg4 : arg4.IsWhole) (arg5 : Memref sig .tc .vmem S1024x259 .f32) (harg5 : arg5.IsWhole)
  (x0 : Vec F S1024x2048 .f32) (x1 : Vec F S2048x259 .bf16) (a : Vec F S1024x259 .f32)

-- `cond1_0`, not `cond1_1`: the accumulator restarts from `k1_pay1` and takes one step.
theorem run1_A (K : PUnit → sProp 𝕄) (hc0 : cond1_0 i) (hc1 : ¬cond1_1 i) :
    iprop(owns c arg2 fullShare x0 ∗ owns c arg3 fullShare x1 ∗ (∃ d, owns c arg5 fullShare d)
        ∗ (iprop(owns c arg2 fullShare x0 ∗ owns c arg3 fullShare x1 ∗ owns c arg5 fullShare (k1_pay2 x0 x1 k1_pay1)) -∗ K ⟨⟩))
      ⊢ wp frame (wpE (defs₀ (F := F)) Variants.none c none) E (cc1__reduce_matmul_kernel i arg2 harg2 arg3 harg3 arg4 harg4 arg5 harg5) K := by
  simp only [cc1__reduce_matmul_kernel_eq_skeleton]; unfold cc1__reduce_matmul_kernel_skel owns
  iintro ⟨⟨%f0, %hf0, H0⟩, ⟨%f1, %hf1, H1⟩, ⟨%d5, %f5, -, H5⟩, Hk⟩
  obtain rfl := harg2.eq_unread hf0
  obtain rfl := harg3.eq_unread hf1
  sl_exec (disch := first | exact hc0 | exact hc1)
  sl_step
  iapply Hk
  isplitl [H0]; · iexists _; isplitr; ipureintro; exact harg2.read_unread _; iexact H0
  isplitl [H1]; · iexists _; isplitr; ipureintro; exact harg3.read_unread _; iexact H1
  iexists _; isplitr; swap; iexact H5
  ipureintro; sl_unfold_run_names; rw [read_top]
  simp only [View.readAt_eq_ld, Memref.IsWhole.read_unread, View.ld_unit_zero (S := S1024x2048) hz2 inb_S1024x2048_S1024x2048_0_0,
    View.ld_unit_zero (S := S2048x259) hz2 inb_S2048x259_S2048x259_0_0, View.readCov_unit_zero (S := S1024x259) arg5.view hz2 inb_S1024x259_S1024x259_0_0]

-- neither condition: the accumulator `a` takes one step.
theorem run1_B (K : PUnit → sProp 𝕄) (hc0 : ¬cond1_0 i) (hc1 : ¬cond1_1 i) :
    iprop(owns c arg2 fullShare x0 ∗ owns c arg3 fullShare x1 ∗ owns c arg5 fullShare a
        ∗ (iprop(owns c arg2 fullShare x0 ∗ owns c arg3 fullShare x1 ∗ owns c arg5 fullShare (k1_pay2 x0 x1 a)) -∗ K ⟨⟩))
      ⊢ wp frame (wpE (defs₀ (F := F)) Variants.none c none) E (cc1__reduce_matmul_kernel i arg2 harg2 arg3 harg3 arg4 harg4 arg5 harg5) K := by
  simp only [cc1__reduce_matmul_kernel_eq_skeleton]; unfold cc1__reduce_matmul_kernel_skel owns
  iintro ⟨⟨%f0, %hf0, H0⟩, ⟨%f1, %hf1, H1⟩, ⟨%f5, %hf5, H5⟩, Hk⟩
  obtain rfl := harg2.eq_unread hf0
  obtain rfl := harg3.eq_unread hf1
  obtain rfl := harg5.eq_unread hf5
  sl_exec (disch := first | exact hc0 | exact hc1)
  sl_step
  iapply Hk
  isplitl [H0]; · iexists _; isplitr; ipureintro; exact harg2.read_unread _; iexact H0
  isplitl [H1]; · iexists _; isplitr; ipureintro; exact harg3.read_unread _; iexact H1
  iexists _; isplitr; swap; iexact H5
  ipureintro; sl_unfold_run_names; rw [read_top]
  simp only [View.readAt_eq_ld, Memref.IsWhole.read_unread, View.ld_unit_zero (S := S1024x2048) hz2 inb_S1024x2048_S1024x2048_0_0,
    View.ld_unit_zero (S := S2048x259) hz2 inb_S2048x259_S2048x259_0_0, View.ld_unit_zero (S := S1024x259) hz2 inb_S1024x259_S1024x259_0_0]

-- `cond1_1`, not `cond1_0`: one step, and the output takes the accumulator's new value.
theorem run1_C (K : PUnit → sProp 𝕄) (hc0 : ¬cond1_0 i) (hc1 : cond1_1 i) :
    iprop(owns c arg2 fullShare x0 ∗ owns c arg3 fullShare x1 ∗ (∃ d, owns c arg4 fullShare d) ∗ owns c arg5 fullShare a
        ∗ (iprop(owns c arg2 fullShare x0 ∗ owns c arg3 fullShare x1 ∗ owns c arg4 fullShare (k1_pay2 x0 x1 a) ∗ owns c arg5 fullShare (k1_pay2 x0 x1 a)) -∗ K ⟨⟩))
      ⊢ wp frame (wpE (defs₀ (F := F)) Variants.none c none) E (cc1__reduce_matmul_kernel i arg2 harg2 arg3 harg3 arg4 harg4 arg5 harg5) K := by
  simp only [cc1__reduce_matmul_kernel_eq_skeleton]; unfold cc1__reduce_matmul_kernel_skel owns
  iintro ⟨⟨%f0, %hf0, H0⟩, ⟨%f1, %hf1, H1⟩, ⟨%d4, %f4, -, H4⟩, ⟨%f5, %hf5, H5⟩, Hk⟩
  obtain rfl := harg2.eq_unread hf0
  obtain rfl := harg3.eq_unread hf1
  obtain rfl := harg5.eq_unread hf5
  sl_exec (disch := first | exact hc0 | exact hc1)
  sl_step
  iapply Hk
  isplitl [H0]; · iexists _; isplitr; ipureintro; exact harg2.read_unread _; iexact H0
  isplitl [H1]; · iexists _; isplitr; ipureintro; exact harg3.read_unread _; iexact H1
  isplitl [H4]
  · iexists _; isplitr; swap; iexact H4
    ipureintro; sl_unfold_run_names; rw [read_top]
    simp only [View.readAt_eq_ld, Memref.IsWhole.read_unread, View.ld_unit_zero (S := S1024x2048) hz2 inb_S1024x2048_S1024x2048_0_0,
      View.ld_unit_zero (S := S2048x259) hz2 inb_S2048x259_S2048x259_0_0, View.ld_unit_zero (S := S1024x259) hz2 inb_S1024x259_S1024x259_0_0, View.readCov_unit_zero (S := S1024x259) arg5.view hz2 inb_S1024x259_S1024x259_0_0]
  iexists _; isplitr; swap; iexact H5
  ipureintro; sl_unfold_run_names; rw [read_top]
  simp only [View.readAt_eq_ld, Memref.IsWhole.read_unread, View.ld_unit_zero (S := S1024x2048) hz2 inb_S1024x2048_S1024x2048_0_0,
    View.ld_unit_zero (S := S2048x259) hz2 inb_S2048x259_S2048x259_0_0, View.ld_unit_zero (S := S1024x259) hz2 inb_S1024x259_S1024x259_0_0]

end

theorem idleAt1_2 : ∀ t : Fin cfg1.N, ¬cond1_1 (grid1.coords t) → idle1 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → idle1 2 (grid1.coords t) = false := by decide +kernel

theorem body_obligation1 (c : Dev nD) : BodyObligation (dat1 (F := F) V c) (defs₀ (F := F)) Variants.none () Set.univ := fun t => by
  rw [bigSep_W1, bigSep_W1]
  show _ ⊢ wp _ _ _ (bodyAt1 t) _
  rw [show (dat1 V c).owesAt () t.succ = (dat1 V c).owesAt () t.castSucc from rfl,
    show (dat1 V c).Φ t.succ = PhiS1 V c (t.val + 1) t.isLt from rfl, PhiS1_succ, PhiS1_castSucc V c t]
  have hN : t.val < 64 := lt_of_lt_of_eq t.isLt (show cfg1.N = 64 from N_1)
  by_cases h31 : t.val % 32 = 31
  · have h0 : ¬t.val % 32 = 0 := by omega
    rw [PhiS1_pos V c _ _ (by omega)]
    simp only [before1_0, before1_1, after1_0, after1_1, liveAt1_2 t ((hcond1_1 t).mpr h31), after1_2, outsAt1_step V c t h0]
    iintro ⟨⟨⟨HS, Hrest⟩, Hg⟩, Ho, ⟨%_, H0⟩, ⟨%_, H1⟩, ⟨%_, H2⟩⟩
    iapply run1_C (hc0 := fun h => h0 ((hcond1_0 t).mp h)) (hc1 := (hcond1_1 t).mpr h31)
    iframe H0 H1 HS
    isplitl [H2]; · iexists _; iexact H2
    iintro ⟨H0, H1, H2, HS⟩
    iframe
  · have hc1 : ¬cond1_1 (grid1.coords t) := fun h => h31 ((hcond1_1 t).mp h)
    simp only [before1_0, before1_1, after1_0, after1_1, idleAt1_2 t hc1, noFlush1_2 t hc1]
    by_cases h0 : t.val % 32 = 0
    · rw [outsAt1_first V c t h0]
      have hΦ : PhiS1 V c t.val (Nat.le_of_lt t.isLt) ⊢ iprop(iprop((∃ d, owns c scM1 fullShare d)
          ∗ Pipeline.scopedRestBut (Ix := Unit) (Name := ℕ) (U := UR sig nD τ) (Lvl := ℕ) (Val := Elt F) spec1 c [cc1_scratch0]) ∗ (∃ r, prngReg c r)) := by
        by_cases hz : t.val = 0
        · rw [PhiS1_zero V c _ _ hz, PhiA1_eq]
        · rw [PhiS1_pos V c _ _ hz]; iintro ⟨⟨HS, Hrest⟩, Hg⟩; iframe; iexists _; iexact HS
      iintro ⟨HΦ, Ho, ⟨%_, H0⟩, ⟨%_, H1⟩, H2⟩
      icases hΦ $$ HΦ with ⟨⟨HS, Hrest⟩, Hg⟩
      iapply run1_A (hc0 := (hcond1_0 t).mpr h0) (hc1 := hc1)
      iframe H0 H1 HS
      iintro ⟨H0, H1, HS⟩
      iframe
    · rw [outsAt1_step V c t h0, PhiS1_pos V c _ _ (fun h => h0 (by rw [h]))]
      iintro ⟨⟨⟨HS, Hrest⟩, Hg⟩, Ho, ⟨%_, H0⟩, ⟨%_, H1⟩, H2⟩
      iapply run1_B (hc0 := fun h => h0 ((hcond1_0 t).mp h)) (hc1 := hc1)
      iframe H0 H1 HS
      iintro ⟨H0, H1, HS⟩
      iframe

end Cert.Kernel.Hand

end
-- ==== Proof.KBReg2Data.lean ====
import proofs.«411533_j19043884990716_1_alg».proof.Proof.Gen.Kernel.Launch
import proofs.«411533_j19043884990716_1_alg».proof.Proof.Gen.Kernel.Skeleton
import proofs.«411533_j19043884990716_1_alg».proof.Proof.Gen.Kernel.Points
import proofs.«411533_j19043884990716_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe
open Idealize.SL Idealize.SL.RA
open Idealize.ShloMosaic.Pipeline (Dat)

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_out : Rect S1024x128 := Rect.unit (s := S1024x128) ![0, 0] S1024x128.size inb_S1024x128_S1024x128_0_0

def out2_7 (x0 : Vec F S1024x128 .f32) (x1 : Vec F S1024x256 .f32) (x2 : Vec F S1024x8 .f32) (x3 : Vec F S392x256 .f32)
    (x4 : Vec F S256 .f32) (x5 : Vec F S256x128 .f32) (x6 : Vec F S128 .f32) : Vec F S1024x128 .f32 :=
  View.canon [⟨r2_out,
    k2_pay1 (View.ld x0 r2_out)
      (View.ld x1 (Rect.unit (s := S1024x256) ![0, 0] S1024x256.size inb_S1024x256_S1024x256_0_0))
      (View.ld x2 (Rect.unit (s := S1024x8) ![0, 0] S1024x8.size inb_S1024x8_S1024x8_0_0))
      (View.ld x3 (Rect.unit (s := S392x256) ![0, 0] S392x256.size inb_S392x256_S392x256_0_0))
      (View.ld x5 (Rect.unit (s := S256x128) ![0, 0] S256x128.size inb_S256x128_S256x128_0_0))
      (View.ld x4 (Rect.unit (s := S256) ![0] S256.size inb_S256_S256_0))
      (View.ld x6 (Rect.unit (s := S128) ![0] S128.size inb_S128_S128_0))
      (View.ld x0 r2_out)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_7 (c : Dev nD) (t : Fin cfg2.N) : (dat2 V c).after 7 t =
    out2_7 (iblk2 V c 0 t) (iblk2 V c 1 t) (iblk2 V c 2 t) (iblk2 V c 3 t) (iblk2 V c 4 t) (iblk2 V c 5 t) (iblk2 V c 6 t) := by dsimp only [dat2]

end Cert.Kernel.Hand

end
-- ==== Proof.KBReg2Body.lean ====
import proofs.«411533_j19043884990716_1_alg».proof.Proof.KBReg2Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]
variable (V : (c : Dev nD) → (b : Ref sig .tc) → Buf (Elt F) ((c : Thread nD τ).loc b))

local notation "𝕄" => MT nD τ sig Unit (Elt F) ℕ (UR sig nD τ) ℕ

-- A single piece over the whole shape covers every index, so what is read after the writes is `View.canon` of that piece.
theorem sound_kernel2 (c : Dev nD) (E : Set ℕ) (i : grid2.Coords) (arg1 : Memref sig .tc .vmem S1024x128 .f32) (harg1 : arg1.IsWhole) (arg2 : Memref sig .tc .vmem S1024x256 .f32) (harg2 : arg2.IsWhole) (arg3 : Memref sig .tc .vmem S1024x8 .f32) (harg3 : arg3.IsWhole) (arg4 : Memref sig .tc .vmem S392x256 .f32) (harg4 : arg4.IsWhole) (arg5 : Memref sig .tc .vmem S256 .f32) (harg5 : arg5.IsWhole) (arg6 : Memref sig .tc .vmem S256x128 .f32) (harg6 : arg6.IsWhole) (arg7 : Memref sig .tc .vmem S128 .f32) (harg7 : arg7.IsWhole) (arg8 : Memref sig .tc .vmem S1024x128 .f32) (harg8 : arg8.IsWhole)
    (x0 : Vec F S1024x128 .f32) (x1 : Vec F S1024x256 .f32) (x2 : Vec F S1024x8 .f32) (x3 : Vec F S392x256 .f32) (x4 : Vec F S256 .f32) (x5 : Vec F S256x128 .f32) (x6 : Vec F S128 .f32) (K : PUnit → sProp 𝕄) (I : sProp 𝕄)
    (hI : I = iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6)) :
    iprop(I ∗ (∃ d, owns c arg8 fullShare d) ∗ (iprop(I ∗ owns c arg8 fullShare (out2_7 x0 x1 x2 x3 x4 x5 x6)) -∗ K ⟨⟩))
      ⊢ wp frame (wpE (defs₀ (F := F)) Variants.none c none) E (cc2__node_mlp_kernel i arg1 harg1 arg2 harg2 arg3 harg3 arg4 harg4 arg5 harg5 arg6 harg6 arg7 harg7 arg8 harg8) K := by
  subst hI
  simp only [cc2__node_mlp_kernel_eq_skeleton]; unfold cc2__node_mlp_kernel_skel owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, Hk⟩
  subst hf0 hf1 hf2 hf3 hf4 hf5 hf6
  sl_exec
  sl_step
  iapply Hk
  isplitr [H7]
  · isplitl [H0]; · iexists f0; isplitr; ipureintro; rfl; iexact H0
    isplitl [H1]; · iexists f1; isplitr; ipureintro; rfl; iexact H1
    isplitl [H2]; · iexists f2; isplitr; ipureintro; rfl; iexact H2
    isplitl [H3]; · iexists f3; isplitr; ipureintro; rfl; iexact H3
    isplitl [H4]; · iexists f4; isplitr; ipureintro; rfl; iexact H4
    isplitl [H5]; · iexists f5; isplitr; ipureintro; rfl; iexact H5
    iexists f6; isplitr; ipureintro; rfl; iexact H6
  iexists _; isplitr; swap; iexact H7
  ipureintro; exact View.read_writes_eq_canon _ _ _ (View.cover_of_tiled [⟨r2_out, _⟩] S1024x128.size (by rfl))

-- An input window's block is the same before and after a grid point.
theorem before2 (c : Dev nD) (w : Fin cfg2.W) (hw : w ≠ 7) (t : Fin cfg2.N) (d) : (dat2 V c).before w t d = (dat2 V c).after w t := by
  fin_cases w <;> first | exact absurd rfl hw | exact (Dat.before_in_eq_fetched _ _ rfl (fun _ => rfl) (fun _ _ _ => rfl) (fun _ => rfl) t d).trans rfl

theorem body_obligation2 (c : Dev nD) : BodyObligation (dat2 (F := F) V c) (defs₀ (F := F)) Variants.none () Set.univ := fun t => by
  rw [bigSep_W2, bigSep_W2]
  show _ ⊢ wp _ _ _ (bodyAt2 t) _
  simp (disch := decide) only [before2 V c, show ∀ w i, cfg2.idle w i = false from fun _ _ => rfl]
  rw [show (dat2 V c).Φ t.succ = (dat2 V c).Φ t.castSucc from rfl, show (dat2 V c).owesAt () t.succ = (dat2 V c).owesAt () t.castSucc from rfl, after2_7]
  iintro ⟨HΦ, Ho, ⟨%_, H0⟩, ⟨%_, H1⟩, ⟨%_, H2⟩, ⟨%_, H3⟩, ⟨%_, H4⟩, ⟨%_, H5⟩, ⟨%_, H6⟩, ⟨%_, H7⟩⟩
  iapply sound_kernel2 (hI := rfl)
  isplitl [H0 H1 H2 H3 H4 H5 H6]; · iframe
  isplitl [H7]; · iexists _; iexact H7
  iintro ⟨⟨H0, H1, H2, H3, H4, H5, H6⟩, H7⟩
  iframe
  iapply H7

end Cert.Kernel.Hand

end
-- ==== Proof.KBFrame.lean ====
import proofs.«411533_j19043884990716_1_alg».proof.Proof.Gen.Kernel.Launch
import proofs.«411533_j19043884990716_1_alg».proof.Proof.Gen.Kernel.Skeleton
import proofs.«411533_j19043884990716_1_alg».proof.Proof.Gen.Kernel.Points
import proofs.«411533_j19043884990716_1_alg».proof.Proof.Gen.Kernel.Regions
import proofs.«411533_j19043884990716_1_alg».proof.Proof.KBReg0Body
import proofs.«411533_j19043884990716_1_alg».proof.Proof.KBReg1Body
import proofs.«411533_j19043884990716_1_alg».proof.Proof.KBReg2Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

def outs0 : Outs (F := F) := fun _ r c =>
  Pipeline.withArrays spec0 c (V7 m c) (fun w => (dat0 (atTc (V7 m)) c).arrAt w cfg0.N) (Proc.devRef .tc r)

def outs1 : Outs (F := F) := fun J r c =>
  if J = 9 then Pipeline.withArrays spec1 c (V8 m (outs0 m) c) (fun w => (dat1 (atTc (V8 m (outs0 m))) c).arrAt w cfg1.N) (Proc.devRef .tc r)
  else outs0 m J r c

def outsH : Outs (F := F) := fun J r c =>
  if J = 11 then Pipeline.withArrays spec2 c (V10 m (outs1 m) c) (fun w => (dat2 (atTc (V10 m (outs1 m))) c).arrAt w cfg2.N) (Proc.devRef .tc r)
  else outs1 m J r c

theorem outsH_8 (c : Dev nD) : outsH m 8 main_v16 c = (dat0 (atTc (V7 m)) c).arrAt 15 cfg0.N := by
  show Pipeline.withArrays spec0 c (V7 m c) (fun w => (dat0 (atTc (V7 m)) c).arrAt w cfg0.N) (Proc.devRef .tc (Pipeline.arrRef spec0 15)) = _
  exact Pipeline.withArrays_arr spec0 launch0.win.arr_inj c _ _ 15
theorem outsH_9 (c : Dev nD) : outsH m 9 main_v17 c = (dat1 (atTc (V8 m (outsH m))) c).arrAt 2 cfg1.N := by
  show Pipeline.withArrays spec1 c (V8 m (outs0 m) c) (fun w => (dat1 (atTc (V8 m (outs0 m))) c).arrAt w cfg1.N) (Proc.devRef .tc (Pipeline.arrRef spec1 2)) = _
  exact Pipeline.withArrays_arr spec1 launch1.win.arr_inj c _ _ 2
theorem outsH_11 (c : Dev nD) : outsH m 11 main_v21 c = (dat2 (atTc (V10 m (outsH m))) c).arrAt 7 cfg2.N := by
  show Pipeline.withArrays spec2 c (V10 m (outs1 m) c) (fun w => (dat2 (atTc (V10 m (outs1 m))) c).arrAt w cfg2.N) (Proc.devRef .tc (Pipeline.arrRef spec2 7)) = _
  exact Pipeline.withArrays_arr spec2 launch2.win.arr_inj c _ _ 7

def pdats : (p : Fin 3) → (c : Dev nD) → Dat τ (Elt F) Unit ℕ (UR sig nD τ) ℕ (Pipeline.pin (pcfgs (F := F)) adm p) c
  | ⟨0, _⟩ => fun c => dat0 (atTc (V7 m)) c
  | ⟨1, _⟩ => fun c => dat1 (atTc (V8 m (outsH m))) c
  | ⟨2, _⟩ => fun c => dat2 (atTc (V10 m (outsH m))) c

abbrev frVariants : Variants := Variants.none
abbrev frL : GSem nD τ sig → Finset Unit := fun _ => ∅
abbrev frLv : GSem nD τ sig → Unit → ℕ := fun _ _ => 0
abbrev frRest (c : Dev nD) : sProp 𝕄 := iprop((∃ r, prngReg c r) ∗ ∃ W, owes (c : Thread nD τ) (0 : CellTallies nD τ sig Unit) W)
abbrev frE : Fin 4 → Dev nD → sProp 𝕄 := fun _ c => frRest c

theorem hF0 (c : Dev nD) (w : Fin cfg0.W) :
    (dat0 (atTc (V7 m)) c).arrAt w cfg0.N = atTc (V8 m (outsH m)) c (Pipeline.arrRef spec0 w) := by
  by_cases hw : w = 15
  · subst hw
    refine (outsH_8 m c).symm.trans ?_
    show _ = Function.update (V7 m c) (Proc.devRef .tc main_v16) (outsH m 8 main_v16 c) (Proc.devRef .tc main_v16)
    rw [Function.update_self]
  · have hin : (cfg0.win w).isOut = false := by revert w; decide
    have hne : Pipeline.arrRef spec0 w ∉ ([main_v16] : List (Ref sig .tc)) := by revert w; decide
    rw [Dat.arrAt_in _ w hin, A_eq0]
    exact (V8_of m (outsH m) c _ hne).symm
theorem hrest0 (c : Dev nD) : ∀ b, b ∉ Finset.univ.image (Pipeline.arrRef spec0) → atTc (V8 m (outsH m)) c b = atTc (V7 m) c b :=
  fun b hb => V8_of m (outsH m) c b fun h =>
    hb (Finset.mem_image.mpr ⟨15, Finset.mem_univ _, (List.mem_singleton.mp h).symm⟩)

theorem hF1 (c : Dev nD) (w : Fin cfg1.W) :
    (dat1 (atTc (V8 m (outsH m))) c).arrAt w cfg1.N = atTc (V9 m (outsH m)) c (Pipeline.arrRef spec1 w) := by
  by_cases hw : w = 2
  · subst hw
    refine (outsH_9 m c).symm.trans ?_
    show _ = Function.update (V8 m (outsH m) c) (Proc.devRef .tc main_v17) (outsH m 9 main_v17 c) (Proc.devRef .tc main_v17)
    rw [Function.update_self]
  · have hin : (cfg1.win w).isOut = false := by revert w; decide
    have hne : Pipeline.arrRef spec1 w ∉ ([main_v17] : List (Ref sig .tc)) := by revert w; decide
    rw [Dat.arrAt_in _ w hin, A_eq1]
    exact (V9_of m (outsH m) c _ hne).symm
theorem hrest1 (c : Dev nD) : ∀ b, b ∉ Finset.univ.image (Pipeline.arrRef spec1) → atTc (V9 m (outsH m)) c b = atTc (V8 m (outsH m)) c b :=
  fun b hb => V9_of m (outsH m) c b fun h =>
    hb (Finset.mem_image.mpr ⟨2, Finset.mem_univ _, (List.mem_singleton.mp h).symm⟩)

theorem hF2 (c : Dev nD) (w : Fin cfg2.W) :
    (dat2 (atTc (V10 m (outsH m))) c).arrAt w cfg2.N = atTc (V11 m (outsH m)) c (Pipeline.arrRef spec2 w) := by
  by_cases hw : w = 7
  · subst hw
    refine (outsH_11 m c).symm.trans ?_
    show _ = Function.update (V10 m (outsH m) c) (Proc.devRef .tc main_v21) (outsH m 11 main_v21 c) (Proc.devRef .tc main_v21)
    rw [Function.update_self]
  · have hin : (cfg2.win w).isOut = false := by revert w; decide
    have hne : Pipeline.arrRef spec2 w ∉ ([main_v21] : List (Ref sig .tc)) := by revert w; decide
    rw [Dat.arrAt_in _ w hin, A_eq2]
    exact (V11_of m (outsH m) c _ hne).symm
theorem hrest2 (c : Dev nD) : ∀ b, b ∉ Finset.univ.image (Pipeline.arrRef spec2) → atTc (V11 m (outsH m)) c b = atTc (V10 m (outsH m)) c b :=
  fun b hb => V11_of m (outsH m) c b fun h =>
    hb (Finset.mem_image.mpr ⟨7, Finset.mem_univ _, (List.mem_singleton.mp h).symm⟩)

set_option backward.isDefEq.respectTransparency.types false in
def reg0 : Pipeline.RegionSeg (pcfgs (F := F)) adm (pdats m) () defs₀ frVariants frL frLv 0 where
  win := launch0.win.to₀
  block_pos := launch0.block_pos
  stage_whole := launch0.stage_whole
  K := PEmpty
  osem k := k.elim
  ho := Pipeline.OwnSemFacts.none _
  hbody c := (body_obligation0 (atTc (V7 m)) c).loose
  hwaits := Pipeline.hwaits_of_owed_zero _ _ _ _ frL frLv 0 fun _ _ => rfl
  pre c := iprop(StableHlo.held (c : Thread nD τ) (Pipeline.ucRefs τ sig) (V7 m c) ∗ frE 0 c)
  post c := iprop(StableHlo.held (c : Thread nD τ) (Pipeline.ucRefs τ sig) (V8 m (outsH m) c) ∗ frE 1 c)
  X c := iprop(∃ r, prngReg c r)
  Y c := iprop(∃ r, prngReg c r)
  Z c := Pipeline.unscopedRest (Ix := Unit) (Name := ℕ) (U := UR sig nD τ) (Lvl := ℕ) spec0 c (atTc (V7 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (V7 m) c) fun w => A_eq0 _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (V7 m) c) (atTc (V8 m (outsH m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ frVariants frL frLv 1 where
  win := launch1.win.to₀
  block_pos := launch1.block_pos
  stage_whole := launch1.stage_whole
  K := PEmpty
  osem k := k.elim
  ho := Pipeline.OwnSemFacts.none _
  hbody c := (body_obligation1 (atTc (V8 m (outsH m))) c).loose
  hwaits := Pipeline.hwaits_of_owed_zero _ _ _ _ frL frLv 1 fun _ _ => rfl
  pre c := iprop(StableHlo.held (c : Thread nD τ) (Pipeline.ucRefs τ sig) (V8 m (outsH m) c) ∗ frE 1 c)
  post c := iprop(StableHlo.held (c : Thread nD τ) (Pipeline.ucRefs τ sig) (V9 m (outsH m) c) ∗ frE 2 c)
  X c := iprop(∃ r, prngReg c r)
  Y c := iprop(∃ r, prngReg c r)
  Z c := Pipeline.unscopedRest (Ix := Unit) (Name := ℕ) (U := UR sig nD τ) (Lvl := ℕ) spec1 c (atTc (V8 m (outsH m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (V8 m (outsH m)) c) fun w => A_eq1 _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none,
      show (pdats m 1 c).Φ (Fin.last _) = PhiS1 (atTc (V8 m (outsH m))) c cfg1.N le_rfl from rfl,
      PhiS1_pos _ c _ _ (by decide)]
    show _ ⊢ iprop((∃ r, prngReg c r) ∗ BI.emp
      ∗ Pipeline.scopedRest (Ix := Unit) (Name := ℕ) (U := UR sig nD τ) (Lvl := ℕ) (Val := Elt F) spec1 c)
    rw [scopedRest1_split]
    simp only [scM1, owns_whole]
    iintro ⟨⟨Hs, Hb⟩, Hr⟩
    isplitl [Hr]; · iexact Hr
    isplitr; · iempintro
    isplitl [Hs]; · iexists _; iexact Hs
    iexact Hb
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (V8 m (outsH m)) c) (atTc (V9 m (outsH m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m) () defs₀ frVariants frL frLv 2 where
  win := launch2.win.to₀
  block_pos := launch2.block_pos
  stage_whole := launch2.stage_whole
  K := PEmpty
  osem k := k.elim
  ho := Pipeline.OwnSemFacts.none _
  hbody c := (body_obligation2 (atTc (V10 m (outsH m))) c).loose
  hwaits := Pipeline.hwaits_of_owed_zero _ _ _ _ frL frLv 2 fun _ _ => rfl
  pre c := iprop(StableHlo.held (c : Thread nD τ) (Pipeline.ucRefs τ sig) (V10 m (outsH m) c) ∗ frE 2 c)
  post c := iprop(StableHlo.held (c : Thread nD τ) (Pipeline.ucRefs τ sig) (V11 m (outsH m) c) ∗ frE 3 c)
  X c := iprop(∃ r, prngReg c r)
  Y c := iprop(∃ r, prngReg c r)
  Z c := Pipeline.unscopedRest (Ix := Unit) (Name := ℕ) (U := UR sig nD τ) (Lvl := ℕ) spec2 c (atTc (V10 m (outsH m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (V10 m (outsH m)) c) fun w => A_eq2 _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (V10 m (outsH m)) c) (atTc (V11 m (outsH m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev frU := initOf (Pipeline.cells cfgs cellOf_inj) (Pipeline.launchToks cfgs cellOf_inj)

theorem hu₀ : (ownU frU : sProp 𝕄)
    ⊢ |={Set.univ}=> iprop(BI.own (emb₁ frU)
        ∗ bigSep Finset.univ fun _ : Dev nD => (BI.emp : sProp 𝕄)) := by
  iintro Hu; imodintro
  isplitl [Hu]
  · iapply (show (ownU frU : sProp 𝕄)
        ⊢ BI.own (emb₁ frU) from .rfl)
    iexact Hu
  iapply (show (BI.emp : sProp 𝕄) ⊢ bigSep Finset.univ (fun _ : Dev nD => (BI.emp : sProp 𝕄)) from by rw [BI.bigSep_emp_const])
  iempintro

theorem hE3 (c : Dev nD) : frE (F := F) 3 c ⊢ (iprop(∃ W, owes (c : Thread nD τ) (0 : CellTallies nD τ sig Unit) W) : sProp 𝕄) := by
  iintro ⟨-, HO⟩; iexact HO

/-- Memory `s` holds argument `b` on core `c` as the launch memory `m` does. -/
abbrev kept (c : Dev nD) (s : MemSt nD τ sig (Elt F)) (b : Ref sig .tc) : Prop :=
  s.mem ((c.tc : Thread nD τ).loc b) = m ((c.tc : Thread nD τ).loc b)

/-- The two results at the last valuation, every argument as launched. -/
abbrev Post (c : Dev nD) (s : MemSt nD τ sig (Elt F)) : Prop :=
  s.mem ((c.tc : Thread nD τ).loc main_v20) = V11 m (outsH m) c main_v20
  ∧ s.mem ((c.tc : Thread nD τ).loc main_v21) = V11 m (outsH m) c main_v21
  ∧ kept m c s main_arg0 ∧ kept m c s main_arg1 ∧ kept m c s main_arg2 ∧ kept m c s main_arg3 ∧ kept m c s main_arg4 ∧ kept m c s main_arg5 ∧ kept m c s main_arg6 ∧ kept m c s main_arg7 ∧ kept m c s main_arg8 ∧ kept m c s main_arg9 ∧ kept m c s main_arg10 ∧ kept m c s main_arg11 ∧ kept m c s main_arg12 ∧ kept m c s main_arg13 ∧ kept m c s main_arg14 ∧ kept m c s main_arg15 ∧ kept m c s main_arg16 ∧ kept m c s main_arg17 ∧ kept m c s main_arg18 ∧ kept m c s main_arg19 ∧ kept m c s main_arg20 ∧ kept m c s main_arg21

set_option backward.isDefEq.respectTransparency.types false in
/-- Every weakly fair execution of the program ends, nothing faulting, in a memory satisfying `Post` on every core. -/
theorem run_values (ρ : Dev nD → PrngReg) :
    θ_run defs (onTc (τ := τ) (main (F := F))) ⟨m, fun _ => 0, ρ⟩ (fun r => ∀ c : Dev nD, Post m c r.2) := by
  refine Pipeline.θ_run_regions_kit_dev (pcfgs (F := F)) adm (pdats m) () cellOf_inj emb₁ defs₀ frVariants frL frLv m ρ main
    (segs m (outsH m) frVariants frL frLv frE () (pdats m) (reg0 m) (reg1 m) (reg2 m))
    (fun c Q => by
      rewrite [main_chain c, Pipeline.Seg.run_eq_chain,
        show (segs m (outsH m) frVariants frL frLv frE () (pdats m) (reg0 m) (reg1 m) (reg2 m) c).map Pipeline.Seg.prog = [
          StableHlo.seq hostOps0, StableHlo.seq hostOps0_1, StableHlo.seq hostOps0_2, StableHlo.seq hostOps0_3,
          StableHlo.seq hostOps0_4, StableHlo.seq hostOps0_5, StableHlo.seq hostOps0_6,
          Prog.lift (.customCall (Pipeline.entry 0) ()), Prog.lift (.customCall (Pipeline.entry 1) ()),
          StableHlo.seq hostOps2, Prog.lift (.customCall (Pipeline.entry 2) ()) ] from rfl]
      exact .rfl)
    (fun c => by simp only [segs, Pipeline.Seg.pipes_host, Pipeline.Seg.pipes_region, Pipeline.Seg.pipes_nil]; decide)
    0 (fun _ _ => rfl) (fun _ => (BI.emp : sProp 𝕄))
    frU hu₀
    (T₀ := fun c => iprop(StableHlo.held (c : Thread nD τ) (Pipeline.ucRefs τ sig) (V0 m c) ∗ frE 0 c))
    (Tₙ := fun c => StableHlo.held (c : Thread nD τ) (Pipeline.ucRefs τ sig) (V11 m (outsH m) c))
    (hch := fun c => ⟨.rfl, .rfl, .rfl, .rfl, .rfl, .rfl, .rfl, .rfl, .rfl, .rfl, .rfl, sep_mono .rfl (hE3 c)⟩)
    (hinit := ?_) (QY := Post m) (hfin := fun c s' => ?_) (hQ := fun _ h => h)
  · refine Pipeline.initEach frL frLv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (V11 m (outsH m) c) s') $$ [Hh HSI]
    · isplitl [Hh] <;> iassumption
    icases Hr with ⟨%h, HSI⟩
    imodintro
    isplitr
    · ipureintro
      have hm := fun (b : Ref sig .tc) (hb : ¬ (Proc.devRef (τ := τ) .tc b).isScoped) =>
        h _ (Finset.mem_filter.mpr ⟨StableHlo.devRef_mem_tcRefs b, hb⟩)
      exact ⟨hm main_v20 (by decide), hm main_v21 (by decide),
        (hm main_arg0 (by decide)).trans (V11_main_arg0 m _ c),
        (hm main_arg1 (by decide)).trans (V11_main_arg1 m _ c),
        (hm main_arg2 (by decide)).trans (V11_main_arg2 m _ c),
        (hm main_arg3 (by decide)).trans (V11_main_arg3 m _ c),
        (hm main_arg4 (by decide)).trans (V11_main_arg4 m _ c),
        (hm main_arg5 (by decide)).trans (V11_main_arg5 m _ c),
        (hm main_arg6 (by decide)).trans (V11_main_arg6 m _ c),
        (hm main_arg7 (by decide)).trans (V11_main_arg7 m _ c),
        (hm main_arg8 (by decide)).trans (V11_main_arg8 m _ c),
        (hm main_arg9 (by decide)).trans (V11_main_arg9 m _ c),
        (hm main_arg10 (by decide)).trans (V11_main_arg10 m _ c),
        (hm main_arg11 (by decide)).trans (V11_main_arg11 m _ c),
        (hm main_arg12 (by decide)).trans (V11_main_arg12 m _ c),
        (hm main_arg13 (by decide)).trans (V11_main_arg13 m _ c),
        (hm main_arg14 (by decide)).trans (V11_main_arg14 m _ c),
        (hm main_arg15 (by decide)).trans (V11_main_arg15 m _ c),
        (hm main_arg16 (by decide)).trans (V11_main_arg16 m _ c),
        (hm main_arg17 (by decide)).trans (V11_main_arg17 m _ c),
        (hm main_arg18 (by decide)).trans (V11_main_arg18 m _ c),
        (hm main_arg19 (by decide)).trans (V11_main_arg19 m _ c),
        (hm main_arg20 (by decide)).trans (V11_main_arg20 m _ c),
        (hm main_arg21 (by decide)).trans (V11_main_arg21 m _ c)⟩
    · iexact HSI

end Cert.Kernel.Hand

end
-- ==== Proof.KIReg0Data.lean ====
import proofs.«411533_j19043884990716_1_alg».proof.Proof.Gen.KernelIdeal.Launch
import proofs.«411533_j19043884990716_1_alg».proof.Proof.Gen.KernelIdeal.Skeleton
import proofs.«411533_j19043884990716_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe
open Idealize.SL Idealize.SL.RA
open Idealize.ShloMosaic.Pipeline (Dat)

variable {F : FTy → Type} [FloatOps F]
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rl0_S2048x261 : Rect S2048x261 := Rect.unit (s := S2048x261) ![0, 0] S2048x261.size inb_S2048x261_S2048x261_0_0
abbrev rl0_S2048x3 : Rect S2048x3 := Rect.unit (s := S2048x3) ![0, 0] S2048x3.size inb_S2048x3_S2048x3_0_0
abbrev rl0_S2048x1 : Rect S2048x1 := Rect.unit (s := S2048x1) ![0, 0] S2048x1.size inb_S2048x1_S2048x1_0_0
abbrev rl0_S261x256 : Rect S261x256 := Rect.unit (s := S261x256) ![0, 0] S261x256.size inb_S261x256_S261x256_0_0
abbrev rl0_S256 : Rect S256 := Rect.unit (s := S256) ![0] S256.size inb_S256_S256_0
abbrev rl0_S256x256 : Rect S256x256 := Rect.unit (s := S256x256) ![0, 0] S256x256.size inb_S256x256_S256x256_0_0
abbrev rl0_S256x1 : Rect S256x1 := Rect.unit (s := S256x1) ![0, 0] S256x1.size inb_S256x1_S256x1_0_0
abbrev rl0_S1 : Rect S1 := Rect.unit (s := S1) ![0] S1.size inb_S1_S1_0

abbrev r0_0 : Rect S2048x259 := Rect.unit (s := S2048x259) ![0, 0] S2048x259.size inb_S2048x259_S2048x259_0_0

def out0_15 (x0 : Vec F S2048x261 .f32) (x1 : Vec F S2048x3 .f32) (x2 : Vec F S2048x1 .f32) (x3 : Vec F S261x256 .f32) (x4 : Vec F S256 .f32) (x5 : Vec F S256x256 .f32) (x6 : Vec F S256 .f32) (x7 : Vec F S261x256 .f32) (x8 : Vec F S256 .f32) (x9 : Vec F S256x256 .f32) (x10 : Vec F S256 .f32) (x11 : Vec F S256x1 .f32) (x12 : Vec F S1 .f32) (x13 : Vec F S256x1 .f32) (x14 : Vec F S1 .f32) : Vec F S2048x259 .bf16 :=
  View.canon [⟨r0_0, k0_pay1 (k0_pay3 (View.ld x9 rl0_S256x256)) (k0_pay4 (View.ld x11 rl0_S256x1)) (k0_pay5 (View.ld x13 rl0_S256x1))
    (k0_pay6 (View.ld x0 rl0_S2048x261) (View.ld x3 rl0_S261x256) (View.ld x5 rl0_S256x256) (View.ld x4 rl0_S256) (View.ld x6 rl0_S256))
    (k0_pay7 (View.ld x0 rl0_S2048x261) (View.ld x7 rl0_S261x256) (View.ld x8 rl0_S256))
    (constant S2048x256 .f32 0x00000000#32)
    (View.ld x10 rl0_S256) (View.ld x12 rl0_S1) (View.ld x14 rl0_S1) (View.ld x2 rl0_S2048x1) (View.ld x1 rl0_S2048x3)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)
    | ⟨_ + 16, h⟩ => absurd h (Nat.not_lt.2 (Nat.le_add_left _ _))
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_15 (c : Dev nD) (t : Fin cfg0.N) : (dat0 V c).after 15 t = out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) := by dsimp only [dat0]

end Cert.KernelIdeal.Hand

end
-- ==== Proof.KIReg0Body.lean ====
import proofs.«411533_j19043884990716_1_alg».proof.Proof.KIReg0Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]
variable (V : (c : Dev nD) → (b : Ref sig .tc) → Buf (Elt F) ((c : Thread nD τ).loc b))

local notation "𝕄" => MT nD τ sig Unit (Elt F) ℕ (UR sig nD τ) ℕ

-- A single piece over the whole shape covers every index, so what is read after the writes is `View.canon` of that piece.
theorem sound_kernel0 (c : Dev nD) (E : Set ℕ) (i : grid0.Coords) (arg1 : Memref sig .tc .vmem S2048x261 .f32) (harg1 : arg1.IsWhole) (arg2 : Memref sig .tc .vmem S2048x3 .f32) (harg2 : arg2.IsWhole) (arg3 : Memref sig .tc .vmem S2048x1 .f32) (harg3 : arg3.IsWhole) (arg4 : Memref sig .tc .vmem S261x256 .f32) (harg4 : arg4.IsWhole) (arg5 : Memref sig .tc .vmem S256 .f32) (harg5 : arg5.IsWhole) (arg6 : Memref sig .tc .vmem S256x256 .f32) (harg6 : arg6.IsWhole) (arg7 : Memref sig .tc .vmem S256 .f32) (harg7 : arg7.IsWhole) (arg8 : Memref sig .tc .vmem S261x256 .f32) (harg8 : arg8.IsWhole) (arg9 : Memref sig .tc .vmem S256 .f32) (harg9 : arg9.IsWhole) (arg10 : Memref sig .tc .vmem S256x256 .f32) (harg10 : arg10.IsWhole) (arg11 : Memref sig .tc .vmem S256 .f32) (harg11 : arg11.IsWhole) (arg12 : Memref sig .tc .vmem S256x1 .f32) (harg12 : arg12.IsWhole) (arg13 : Memref sig .tc .vmem S1 .f32) (harg13 : arg13.IsWhole) (arg14 : Memref sig .tc .vmem S256x1 .f32) (harg14 : arg14.IsWhole) (arg15 : Memref sig .tc .vmem S1 .f32) (harg15 : arg15.IsWhole) (arg16 : Memref sig .tc .vmem S2048x259 .bf16) (harg16 : arg16.IsWhole)
    (x0 : Vec F S2048x261 .f32) (x1 : Vec F S2048x3 .f32) (x2 : Vec F S2048x1 .f32) (x3 : Vec F S261x256 .f32) (x4 : Vec F S256 .f32) (x5 : Vec F S256x256 .f32) (x6 : Vec F S256 .f32) (x7 : Vec F S261x256 .f32) (x8 : Vec F S256 .f32) (x9 : Vec F S256x256 .f32) (x10 : Vec F S256 .f32) (x11 : Vec F S256x1 .f32) (x12 : Vec F S1 .f32) (x13 : Vec F S256x1 .f32) (x14 : Vec F S1 .f32) (K : PUnit → sProp 𝕄) (I : sProp 𝕄)
    (hI : I = iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare x9 ∗ owns c arg11 fullShare x10 ∗ owns c arg12 fullShare x11 ∗ owns c arg13 fullShare x12 ∗ owns c arg14 fullShare x13 ∗ owns c arg15 fullShare x14)) :
    iprop(I ∗ (∃ d, owns c arg16 fullShare d) ∗ (iprop(I ∗ owns c arg16 fullShare (out0_15 x0 x1 x2 x3 x4 x5 x6 x7 x8 x9 x10 x11 x12 x13 x14)) -∗ K ⟨⟩))
      ⊢ wp frame (wpE (defs₀ (F := F)) Variants.none c none) E (cc0__edge_coord_mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  subst hI
  simp only [cc0__edge_coord_mlp_kernel_eq_skeleton]; unfold cc0__edge_coord_mlp_kernel_skel
  simp only [k0_part1_eq_skeleton]; unfold k0_part1_skel owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, ⟨%d15, %f15, -, H15⟩, Hk⟩
  subst hf0 hf1 hf2 hf3 hf4 hf5 hf6 hf7 hf8 hf9 hf10 hf11 hf12 hf13 hf14
  sl_exec
  sl_step
  iapply Hk
  isplitr [H15]
  · isplitl [H0]; · iexists f0; isplitr; ipureintro; rfl; iexact H0
    isplitl [H1]; · iexists f1; isplitr; ipureintro; rfl; iexact H1
    isplitl [H2]; · iexists f2; isplitr; ipureintro; rfl; iexact H2
    isplitl [H3]; · iexists f3; isplitr; ipureintro; rfl; iexact H3
    isplitl [H4]; · iexists f4; isplitr; ipureintro; rfl; iexact H4
    isplitl [H5]; · iexists f5; isplitr; ipureintro; rfl; iexact H5
    isplitl [H6]; · iexists f6; isplitr; ipureintro; rfl; iexact H6
    isplitl [H7]; · iexists f7; isplitr; ipureintro; rfl; iexact H7
    isplitl [H8]; · iexists f8; isplitr; ipureintro; rfl; iexact H8
    isplitl [H9]; · iexists f9; isplitr; ipureintro; rfl; iexact H9
    isplitl [H10]; · iexists f10; isplitr; ipureintro; rfl; iexact H10
    isplitl [H11]; · iexists f11; isplitr; ipureintro; rfl; iexact H11
    isplitl [H12]; · iexists f12; isplitr; ipureintro; rfl; iexact H12
    isplitl [H13]; · iexists f13; isplitr; ipureintro; rfl; iexact H13
    iexists f14; isplitr; ipureintro; rfl; iexact H14
  iexists _; isplitr; swap; iexact H15
  ipureintro; exact View.read_writes_eq_canon _ _ _ (View.cover_of_tiled [⟨r0_0, _⟩] S2048x259.size (by rfl))

-- An input window's block is the same before and after a grid point.
theorem before0 (c : Dev nD) (w : Fin cfg0.W) (hw : w ≠ 15) (t : Fin cfg0.N) (d) : (dat0 V c).before w t d = (dat0 V c).after w t := by
  fin_cases w <;> first | exact absurd rfl hw | exact (Dat.before_in_eq_fetched _ _ rfl (fun _ => rfl) (fun _ _ _ => rfl) (fun _ => rfl) t d).trans rfl

theorem body_obligation0 (c : Dev nD) : BodyObligation (dat0 (F := F) V c) (defs₀ (F := F)) Variants.none () Set.univ := fun t => by
  rw [bigSep_W0, bigSep_W0]
  show _ ⊢ wp _ _ _ (bodyAt0 t) _
  simp (disch := decide) only [before0 V c, show ∀ w i, cfg0.idle w i = false from fun _ _ => rfl]
  rw [show (dat0 V c).Φ t.succ = (dat0 V c).Φ t.castSucc from rfl, show (dat0 V c).owesAt () t.succ = (dat0 V c).owesAt () t.castSucc from rfl, after0_15]
  iintro ⟨HΦ, Ho, ⟨%_, H0⟩, ⟨%_, H1⟩, ⟨%_, H2⟩, ⟨%_, H3⟩, ⟨%_, H4⟩, ⟨%_, H5⟩, ⟨%_, H6⟩, ⟨%_, H7⟩, ⟨%_, H8⟩, ⟨%_, H9⟩, ⟨%_, H10⟩, ⟨%_, H11⟩, ⟨%_, H12⟩, ⟨%_, H13⟩, ⟨%_, H14⟩, ⟨%_, H15⟩⟩
  iapply sound_kernel0 c Set.univ (grid0.coords t) _ _ _ _ _ _ _ _ _ _ _ _ _ _ _ _ _ _ _ _ _ _ _ _ _ _ _ _ _ _ _ _ _ _ _ _ _ _ _ _ _ _ _ _ _ _ _ _ _ rfl
  isplitl [H0 H1 H2 H3 H4 H5 H6 H7 H8 H9 H10 H11 H12 H13 H14]; · iframe
  isplitl [H15]; · iexists _; iexact H15
  iintro ⟨⟨H0, H1, H2, H3, H4, H5, H6, H7, H8, H9, H10, H11, H12, H13, H14⟩, H15⟩
  iframe
  iapply H15

end Cert.KernelIdeal.Hand

end
-- ==== Proof.KIReg1Data.lean ====
import proofs.«411533_j19043884990716_1_alg».proof.Proof.Gen.KernelIdeal.Launch
import proofs.«411533_j19043884990716_1_alg».proof.Proof.Gen.KernelIdeal.Skeleton
import proofs.«411533_j19043884990716_1_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev lblk1 (c : Dev nD) (t : Fin cfg1.N) : Vec F S1024x2048 .f32 := iblk1 V c 0 t
abbrev rblk1 (c : Dev nD) (t : Fin cfg1.N) : Vec F S2048x259 .bf16 := iblk1 V c 1 t

abbrev step1 (c : Dev nD) (t : Fin cfg1.N) (a : Vec F S1024x259 .f32) : Vec F S1024x259 .f32 :=
  k1_pay2 (lblk1 V c t) (rblk1 V c t) a

def outsAt1 (c : Dev nD) : (n : ℕ) → n < cfg1.N → Vec F S1024x259 .f32 × Vec F S1024x259 .f32
  | 0, hn => (step1 V c ⟨0, hn⟩ k1_pay1, step1 V c ⟨0, hn⟩ k1_pay1)
  | n + 1, hn =>
    if (n + 1) % 32 = 0 then (step1 V c ⟨n + 1, hn⟩ k1_pay1, step1 V c ⟨n + 1, hn⟩ k1_pay1)
    else (step1 V c ⟨n + 1, hn⟩ (outsAt1 c n (Nat.lt_of_succ_lt hn)).2, step1 V c ⟨n + 1, hn⟩ (outsAt1 c n (Nat.lt_of_succ_lt hn)).2)

theorem outsAt1_first (c : Dev nD) (t : Fin cfg1.N) (h0 : t.val % 32 = 0) :
    outsAt1 V c t.val t.isLt = (step1 V c t k1_pay1, step1 V c t k1_pay1) := by
  obtain ⟨n, hn⟩ := t
  cases n with
  | zero => exact rfl
  | succ n => exact (if_pos h0).trans rfl

theorem outsAt1_step (c : Dev nD) (t : Fin cfg1.N) (h0 : ¬t.val % 32 = 0) :
    outsAt1 V c t.val t.isLt
      = (step1 V c t (outsAt1 V c (t.val - 1) (Nat.lt_of_le_of_lt (Nat.sub_le _ _) t.isLt)).2,
         step1 V c t (outsAt1 V c (t.val - 1) (Nat.lt_of_le_of_lt (Nat.sub_le _ _) t.isLt)).2) := by
  obtain ⟨n, hn⟩ := t
  cases n with
  | zero => exact absurd (Nat.zero_mod _) h0
  | succ n => exact (if_neg h0).trans rfl

theorem outsAt1_last (c : Dev nD) (t : Fin cfg1.N) (h31 : t.val % 32 = 31) :
    outsAt1 V c t.val t.isLt
      = (step1 V c t (outsAt1 V c (t.val - 1) (Nat.lt_of_le_of_lt (Nat.sub_le _ _) t.isLt)).2,
         step1 V c t (outsAt1 V c (t.val - 1) (Nat.lt_of_le_of_lt (Nat.sub_le _ _) t.isLt)).2) :=
  outsAt1_step V c t (by omega)

abbrev scM1 : Memref sig .tc .vmem S1024x259 .f32 := Memref.whole cc1_scratch0

def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2)
      ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2)
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  ((dat1 V c).before_fetched 0 t (fetch1_0 t) d).trans
    (by unfold Dat.fetched Dat.blockOf iblk1; rw [A_eq1]; try rfl)
theorem before1_1 (c : Dev nD) (t : Fin cfg1.N) (d) : (dat1 V c).before 1 t d = iblk1 V c 1 t :=
  ((dat1 V c).before_fetched 1 t (fetch1_1 t) d).trans
    (by unfold Dat.fetched Dat.blockOf iblk1; rw [A_eq1]; try rfl)

end Cert.KernelIdeal.Hand

end
-- ==== Proof.KIReg1Body.lean ====
import proofs.«411533_j19043884990716_1_alg».proof.Proof.KIReg1Data
import proofs.«411533_j19043884990716_1_alg».proof.Proof.Gen.KernelIdeal.Regions
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 32 = 0 :=
  (by decide +kernel : ∀ t : Fin grid1.N, cond1_0 (grid1.coords t) ↔ t.val % 32 = 0)

abbrev cond1_1 (i : grid1.Coords) : Prop := k1_cond2 i = 1#1

theorem hcond1_1 : ∀ t : Fin cfg1.N, cond1_1 (grid1.coords t) ↔ t.val % 32 = 31 :=
  (by decide +kernel : ∀ t : Fin grid1.N, cond1_1 (grid1.coords t) ↔ t.val % 32 = 31)

theorem hz2 : (![0, 0] : Fin 2 → ℕ) = fun _ => 0 := by
  funext a; fin_cases a <;> rfl

-- A piece over the whole shape at the head of the list decides every index.
theorem read_top {κ sp} (v : View sig κ sp S1024x259 .f32) (f : v.ty.Contents (Elt F)) (w) (L) :
    v.read (Elt F) (v.writes (Elt F) f (⟨Rect.unit ![0, 0] S1024x259.size inb_S1024x259_S1024x259_0_0, w⟩ :: L)) = w := by
  rw [View.read_writes_eq_canon _ _ _ (fun y => ⟨_, List.mem_cons_self, View.mem_set_unit_zero hz2 inb_S1024x259_S1024x259_0_0 y⟩),
    View.canon_cons_unit_zero hz2]

section
variable (c : Dev nD) (E : Set ℕ) (i : grid1.Coords)
  (arg2 : Memref sig .tc .vmem S1024x2048 .f32) (harg2 : arg2.IsWhole) (arg3 : Memref sig .tc .vmem S2048x259 .bf16) (harg3 : arg3.IsWhole)
  (arg4 : Memref sig .tc .vmem S1024x259 .f32) (harg4 : arg4.IsWhole) (arg5 : Memref sig .tc .vmem S1024x259 .f32) (harg5 : arg5.IsWhole)
  (x0 : Vec F S1024x2048 .f32) (x1 : Vec F S2048x259 .bf16) (a : Vec F S1024x259 .f32)

-- `cond1_0`, not `cond1_1`: the accumulator restarts from `k1_pay1` and takes one step.
theorem run1_A (K : PUnit → sProp 𝕄) (hc0 : cond1_0 i) (hc1 : ¬cond1_1 i) :
    iprop(owns c arg2 fullShare x0 ∗ owns c arg3 fullShare x1 ∗ (∃ d, owns c arg5 fullShare d)
        ∗ (iprop(owns c arg2 fullShare x0 ∗ owns c arg3 fullShare x1 ∗ owns c arg5 fullShare (k1_pay2 x0 x1 k1_pay1)) -∗ K ⟨⟩))
      ⊢ wp frame (wpE (defs₀ (F := F)) Variants.none c none) E (cc1__reduce_matmul_kernel i arg2 harg2 arg3 harg3 arg4 harg4 arg5 harg5) K := by
  simp only [cc1__reduce_matmul_kernel_eq_skeleton]; unfold cc1__reduce_matmul_kernel_skel owns
  iintro ⟨⟨%f0, %hf0, H0⟩, ⟨%f1, %hf1, H1⟩, ⟨%d5, %f5, -, H5⟩, Hk⟩
  obtain rfl := harg2.eq_unread hf0
  obtain rfl := harg3.eq_unread hf1
  sl_exec (disch := first | exact hc0 | exact hc1)
  sl_step
  iapply Hk
  isplitl [H0]; · iexists _; isplitr; ipureintro; exact harg2.read_unread _; iexact H0
  isplitl [H1]; · iexists _; isplitr; ipureintro; exact harg3.read_unread _; iexact H1
  iexists _; isplitr; swap; iexact H5
  ipureintro; sl_unfold_run_names; rw [read_top]
  simp only [View.readAt_eq_ld, Memref.IsWhole.read_unread, View.ld_unit_zero (S := S1024x2048) hz2 inb_S1024x2048_S1024x2048_0_0,
    View.ld_unit_zero (S := S2048x259) hz2 inb_S2048x259_S2048x259_0_0, View.readCov_unit_zero (S := S1024x259) arg5.view hz2 inb_S1024x259_S1024x259_0_0]

-- neither condition: the accumulator `a` takes one step.
theorem run1_B (K : PUnit → sProp 𝕄) (hc0 : ¬cond1_0 i) (hc1 : ¬cond1_1 i) :
    iprop(owns c arg2 fullShare x0 ∗ owns c arg3 fullShare x1 ∗ owns c arg5 fullShare a
        ∗ (iprop(owns c arg2 fullShare x0 ∗ owns c arg3 fullShare x1 ∗ owns c arg5 fullShare (k1_pay2 x0 x1 a)) -∗ K ⟨⟩))
      ⊢ wp frame (wpE (defs₀ (F := F)) Variants.none c none) E (cc1__reduce_matmul_kernel i arg2 harg2 arg3 harg3 arg4 harg4 arg5 harg5) K := by
  simp only [cc1__reduce_matmul_kernel_eq_skeleton]; unfold cc1__reduce_matmul_kernel_skel owns
  iintro ⟨⟨%f0, %hf0, H0⟩, ⟨%f1, %hf1, H1⟩, ⟨%f5, %hf5, H5⟩, Hk⟩
  obtain rfl := harg2.eq_unread hf0
  obtain rfl := harg3.eq_unread hf1
  obtain rfl := harg5.eq_unread hf5
  sl_exec (disch := first | exact hc0 | exact hc1)
  sl_step
  iapply Hk
  isplitl [H0]; · iexists _; isplitr; ipureintro; exact harg2.read_unread _; iexact H0
  isplitl [H1]; · iexists _; isplitr; ipureintro; exact harg3.read_unread _; iexact H1
  iexists _; isplitr; swap; iexact H5
  ipureintro; sl_unfold_run_names; rw [read_top]
  simp only [View.readAt_eq_ld, Memref.IsWhole.read_unread, View.ld_unit_zero (S := S1024x2048) hz2 inb_S1024x2048_S1024x2048_0_0,
    View.ld_unit_zero (S := S2048x259) hz2 inb_S2048x259_S2048x259_0_0, View.ld_unit_zero (S := S1024x259) hz2 inb_S1024x259_S1024x259_0_0]

-- `cond1_1`, not `cond1_0`: one step, and the output takes the accumulator's new value.
theorem run1_C (K : PUnit → sProp 𝕄) (hc0 : ¬cond1_0 i) (hc1 : cond1_1 i) :
    iprop(owns c arg2 fullShare x0 ∗ owns c arg3 fullShare x1 ∗ (∃ d, owns c arg4 fullShare d) ∗ owns c arg5 fullShare a
        ∗ (iprop(owns c arg2 fullShare x0 ∗ owns c arg3 fullShare x1 ∗ owns c arg4 fullShare (k1_pay2 x0 x1 a) ∗ owns c arg5 fullShare (k1_pay2 x0 x1 a)) -∗ K ⟨⟩))
      ⊢ wp frame (wpE (defs₀ (F := F)) Variants.none c none) E (cc1__reduce_matmul_kernel i arg2 harg2 arg3 harg3 arg4 harg4 arg5 harg5) K := by
  simp only [cc1__reduce_matmul_kernel_eq_skeleton]; unfold cc1__reduce_matmul_kernel_skel owns
  iintro ⟨⟨%f0, %hf0, H0⟩, ⟨%f1, %hf1, H1⟩, ⟨%d4, %f4, -, H4⟩, ⟨%f5, %hf5, H5⟩, Hk⟩
  obtain rfl := harg2.eq_unread hf0
  obtain rfl := harg3.eq_unread hf1
  obtain rfl := harg5.eq_unread hf5
  sl_exec (disch := first | exact hc0 | exact hc1)
  sl_step
  iapply Hk
  isplitl [H0]; · iexists _; isplitr; ipureintro; exact harg2.read_unread _; iexact H0
  isplitl [H1]; · iexists _; isplitr; ipureintro; exact harg3.read_unread _; iexact H1
  isplitl [H4]
  · iexists _; isplitr; swap; iexact H4
    ipureintro; sl_unfold_run_names; rw [read_top]
    simp only [View.readAt_eq_ld, Memref.IsWhole.read_unread, View.ld_unit_zero (S := S1024x2048) hz2 inb_S1024x2048_S1024x2048_0_0,
      View.ld_unit_zero (S := S2048x259) hz2 inb_S2048x259_S2048x259_0_0, View.ld_unit_zero (S := S1024x259) hz2 inb_S1024x259_S1024x259_0_0, View.readCov_unit_zero (S := S1024x259) arg5.view hz2 inb_S1024x259_S1024x259_0_0]
  iexists _; isplitr; swap; iexact H5
  ipureintro; sl_unfold_run_names; rw [read_top]
  simp only [View.readAt_eq_ld, Memref.IsWhole.read_unread, View.ld_unit_zero (S := S1024x2048) hz2 inb_S1024x2048_S1024x2048_0_0,
    View.ld_unit_zero (S := S2048x259) hz2 inb_S2048x259_S2048x259_0_0, View.ld_unit_zero (S := S1024x259) hz2 inb_S1024x259_S1024x259_0_0]

end

theorem idleAt1_2 : ∀ t : Fin cfg1.N, ¬cond1_1 (grid1.coords t) → idle1 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → idle1 2 (grid1.coords t) = false := by decide +kernel

theorem body_obligation1 (c : Dev nD) : BodyObligation (dat1 (F := F) V c) (defs₀ (F := F)) Variants.none () Set.univ := fun t => by
  rw [bigSep_W1, bigSep_W1]
  show _ ⊢ wp _ _ _ (bodyAt1 t) _
  rw [show (dat1 V c).owesAt () t.succ = (dat1 V c).owesAt () t.castSucc from rfl,
    show (dat1 V c).Φ t.succ = PhiS1 V c (t.val + 1) t.isLt from rfl, PhiS1_succ, PhiS1_castSucc V c t]
  have hN : t.val < 64 := lt_of_lt_of_eq t.isLt (show cfg1.N = 64 from N_1)
  by_cases h31 : t.val % 32 = 31
  · have h0 : ¬t.val % 32 = 0 := by omega
    rw [PhiS1_pos V c _ _ (by omega)]
    simp only [before1_0, before1_1, after1_0, after1_1, liveAt1_2 t ((hcond1_1 t).mpr h31), after1_2, outsAt1_step V c t h0]
    iintro ⟨⟨⟨HS, Hrest⟩, Hg⟩, Ho, ⟨%_, H0⟩, ⟨%_, H1⟩, ⟨%_, H2⟩⟩
    iapply run1_C (hc0 := fun h => h0 ((hcond1_0 t).mp h)) (hc1 := (hcond1_1 t).mpr h31)
    iframe H0 H1 HS
    isplitl [H2]; · iexists _; iexact H2
    iintro ⟨H0, H1, H2, HS⟩
    iframe
  · have hc1 : ¬cond1_1 (grid1.coords t) := fun h => h31 ((hcond1_1 t).mp h)
    simp only [before1_0, before1_1, after1_0, after1_1, idleAt1_2 t hc1, noFlush1_2 t hc1]
    by_cases h0 : t.val % 32 = 0
    · rw [outsAt1_first V c t h0]
      have hΦ : PhiS1 V c t.val (Nat.le_of_lt t.isLt) ⊢ iprop(iprop((∃ d, owns c scM1 fullShare d)
          ∗ Pipeline.scopedRestBut (Ix := Unit) (Name := ℕ) (U := UR sig nD τ) (Lvl := ℕ) (Val := Elt F) spec1 c [cc1_scratch0]) ∗ (∃ r, prngReg c r)) := by
        by_cases hz : t.val = 0
        · rw [PhiS1_zero V c _ _ hz, PhiA1_eq]
        · rw [PhiS1_pos V c _ _ hz]; iintro ⟨⟨HS, Hrest⟩, Hg⟩; iframe; iexists _; iexact HS
      iintro ⟨HΦ, Ho, ⟨%_, H0⟩, ⟨%_, H1⟩, H2⟩
      icases hΦ $$ HΦ with ⟨⟨HS, Hrest⟩, Hg⟩
      iapply run1_A (hc0 := (hcond1_0 t).mpr h0) (hc1 := hc1)
      iframe H0 H1 HS
      iintro ⟨H0, H1, HS⟩
      iframe
    · rw [outsAt1_step V c t h0, PhiS1_pos V c _ _ (fun h => h0 (by rw [h]))]
      iintro ⟨⟨⟨HS, Hrest⟩, Hg⟩, Ho, ⟨%_, H0⟩, ⟨%_, H1⟩, H2⟩
      iapply run1_B (hc0 := fun h => h0 ((hcond1_0 t).mp h)) (hc1 := hc1)
      iframe H0 H1 HS
      iintro ⟨H0, H1, HS⟩
      iframe

end Cert.KernelIdeal.Hand

end
-- ==== Proof.KIReg2Data.lean ====
import proofs.«411533_j19043884990716_1_alg».proof.Proof.Gen.KernelIdeal.Launch
import proofs.«411533_j19043884990716_1_alg».proof.Proof.Gen.KernelIdeal.Skeleton
import proofs.«411533_j19043884990716_1_alg».proof.Proof.Gen.KernelIdeal.Points
import proofs.«411533_j19043884990716_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe
open Idealize.SL Idealize.SL.RA
open Idealize.ShloMosaic.Pipeline (Dat)

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_out : Rect S1024x128 := Rect.unit (s := S1024x128) ![0, 0] S1024x128.size inb_S1024x128_S1024x128_0_0

def out2_7 (x0 : Vec F S1024x128 .f32) (x1 : Vec F S1024x256 .f32) (x2 : Vec F S1024x8 .f32) (x3 : Vec F S392x256 .f32)
    (x4 : Vec F S256 .f32) (x5 : Vec F S256x128 .f32) (x6 : Vec F S128 .f32) : Vec F S1024x128 .f32 :=
  View.canon [⟨r2_out,
    k2_pay1 (View.ld x0 r2_out)
      (View.ld x1 (Rect.unit (s := S1024x256) ![0, 0] S1024x256.size inb_S1024x256_S1024x256_0_0))
      (View.ld x2 (Rect.unit (s := S1024x8) ![0, 0] S1024x8.size inb_S1024x8_S1024x8_0_0))
      (View.ld x3 (Rect.unit (s := S392x256) ![0, 0] S392x256.size inb_S392x256_S392x256_0_0))
      (View.ld x5 (Rect.unit (s := S256x128) ![0, 0] S256x128.size inb_S256x128_S256x128_0_0))
      (View.ld x4 (Rect.unit (s := S256) ![0] S256.size inb_S256_S256_0))
      (View.ld x6 (Rect.unit (s := S128) ![0] S128.size inb_S128_S128_0))
      (View.ld x0 r2_out)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_7 (c : Dev nD) (t : Fin cfg2.N) : (dat2 V c).after 7 t =
    out2_7 (iblk2 V c 0 t) (iblk2 V c 1 t) (iblk2 V c 2 t) (iblk2 V c 3 t) (iblk2 V c 4 t) (iblk2 V c 5 t) (iblk2 V c 6 t) := by dsimp only [dat2]

end Cert.KernelIdeal.Hand

end
-- ==== Proof.KIReg2Body.lean ====
import proofs.«411533_j19043884990716_1_alg».proof.Proof.KIReg2Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]
variable (V : (c : Dev nD) → (b : Ref sig .tc) → Buf (Elt F) ((c : Thread nD τ).loc b))

local notation "𝕄" => MT nD τ sig Unit (Elt F) ℕ (UR sig nD τ) ℕ

-- A single piece over the whole shape covers every index, so what is read after the writes is `View.canon` of that piece.
theorem sound_kernel2 (c : Dev nD) (E : Set ℕ) (i : grid2.Coords) (arg1 : Memref sig .tc .vmem S1024x128 .f32) (harg1 : arg1.IsWhole) (arg2 : Memref sig .tc .vmem S1024x256 .f32) (harg2 : arg2.IsWhole) (arg3 : Memref sig .tc .vmem S1024x8 .f32) (harg3 : arg3.IsWhole) (arg4 : Memref sig .tc .vmem S392x256 .f32) (harg4 : arg4.IsWhole) (arg5 : Memref sig .tc .vmem S256 .f32) (harg5 : arg5.IsWhole) (arg6 : Memref sig .tc .vmem S256x128 .f32) (harg6 : arg6.IsWhole) (arg7 : Memref sig .tc .vmem S128 .f32) (harg7 : arg7.IsWhole) (arg8 : Memref sig .tc .vmem S1024x128 .f32) (harg8 : arg8.IsWhole)
    (x0 : Vec F S1024x128 .f32) (x1 : Vec F S1024x256 .f32) (x2 : Vec F S1024x8 .f32) (x3 : Vec F S392x256 .f32) (x4 : Vec F S256 .f32) (x5 : Vec F S256x128 .f32) (x6 : Vec F S128 .f32) (K : PUnit → sProp 𝕄) (I : sProp 𝕄)
    (hI : I = iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6)) :
    iprop(I ∗ (∃ d, owns c arg8 fullShare d) ∗ (iprop(I ∗ owns c arg8 fullShare (out2_7 x0 x1 x2 x3 x4 x5 x6)) -∗ K ⟨⟩))
      ⊢ wp frame (wpE (defs₀ (F := F)) Variants.none c none) E (cc2__node_mlp_kernel i arg1 harg1 arg2 harg2 arg3 harg3 arg4 harg4 arg5 harg5 arg6 harg6 arg7 harg7 arg8 harg8) K := by
  subst hI
  simp only [cc2__node_mlp_kernel_eq_skeleton]; unfold cc2__node_mlp_kernel_skel owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, Hk⟩
  subst hf0 hf1 hf2 hf3 hf4 hf5 hf6
  sl_exec
  sl_step
  iapply Hk
  isplitr [H7]
  · isplitl [H0]; · iexists f0; isplitr; ipureintro; rfl; iexact H0
    isplitl [H1]; · iexists f1; isplitr; ipureintro; rfl; iexact H1
    isplitl [H2]; · iexists f2; isplitr; ipureintro; rfl; iexact H2
    isplitl [H3]; · iexists f3; isplitr; ipureintro; rfl; iexact H3
    isplitl [H4]; · iexists f4; isplitr; ipureintro; rfl; iexact H4
    isplitl [H5]; · iexists f5; isplitr; ipureintro; rfl; iexact H5
    iexists f6; isplitr; ipureintro; rfl; iexact H6
  iexists _; isplitr; swap; iexact H7
  ipureintro; exact View.read_writes_eq_canon _ _ _ (View.cover_of_tiled [⟨r2_out, _⟩] S1024x128.size (by rfl))

-- An input window's block is the same before and after a grid point.
theorem before2 (c : Dev nD) (w : Fin cfg2.W) (hw : w ≠ 7) (t : Fin cfg2.N) (d) : (dat2 V c).before w t d = (dat2 V c).after w t := by
  fin_cases w <;> first | exact absurd rfl hw | exact (Dat.before_in_eq_fetched _ _ rfl (fun _ => rfl) (fun _ _ _ => rfl) (fun _ => rfl) t d).trans rfl

theorem body_obligation2 (c : Dev nD) : BodyObligation (dat2 (F := F) V c) (defs₀ (F := F)) Variants.none () Set.univ := fun t => by
  rw [bigSep_W2, bigSep_W2]
  show _ ⊢ wp _ _ _ (bodyAt2 t) _
  simp (disch := decide) only [before2 V c, show ∀ w i, cfg2.idle w i = false from fun _ _ => rfl]
  rw [show (dat2 V c).Φ t.succ = (dat2 V c).Φ t.castSucc from rfl, show (dat2 V c).owesAt () t.succ = (dat2 V c).owesAt () t.castSucc from rfl, after2_7]
  iintro ⟨HΦ, Ho, ⟨%_, H0⟩, ⟨%_, H1⟩, ⟨%_, H2⟩, ⟨%_, H3⟩, ⟨%_, H4⟩, ⟨%_, H5⟩, ⟨%_, H6⟩, ⟨%_, H7⟩⟩
  iapply sound_kernel2 (hI := rfl)
  isplitl [H0 H1 H2 H3 H4 H5 H6]; · iframe
  isplitl [H7]; · iexists _; iexact H7
  iintro ⟨⟨H0, H1, H2, H3, H4, H5, H6⟩, H7⟩
  iframe
  iapply H7

end Cert.KernelIdeal.Hand

end
-- ==== Proof.KIFrame.lean ====
import proofs.«411533_j19043884990716_1_alg».proof.Proof.Gen.KernelIdeal.Launch
import proofs.«411533_j19043884990716_1_alg».proof.Proof.Gen.KernelIdeal.Skeleton
import proofs.«411533_j19043884990716_1_alg».proof.Proof.Gen.KernelIdeal.Points
import proofs.«411533_j19043884990716_1_alg».proof.Proof.Gen.KernelIdeal.Regions
import proofs.«411533_j19043884990716_1_alg».proof.Proof.KIReg0Body
import proofs.«411533_j19043884990716_1_alg».proof.Proof.KIReg1Body
import proofs.«411533_j19043884990716_1_alg».proof.Proof.KIReg2Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

def outs0 : Outs (F := F) := fun _ r c =>
  Pipeline.withArrays spec0 c (V7 m c) (fun w => (dat0 (atTc (V7 m)) c).arrAt w cfg0.N) (Proc.devRef .tc r)

def outs1 : Outs (F := F) := fun J r c =>
  if J = 9 then Pipeline.withArrays spec1 c (V8 m (outs0 m) c) (fun w => (dat1 (atTc (V8 m (outs0 m))) c).arrAt w cfg1.N) (Proc.devRef .tc r)
  else outs0 m J r c

def outsH : Outs (F := F) := fun J r c =>
  if J = 11 then Pipeline.withArrays spec2 c (V10 m (outs1 m) c) (fun w => (dat2 (atTc (V10 m (outs1 m))) c).arrAt w cfg2.N) (Proc.devRef .tc r)
  else outs1 m J r c

theorem outsH_8 (c : Dev nD) : outsH m 8 main_v16 c = (dat0 (atTc (V7 m)) c).arrAt 15 cfg0.N := by
  show Pipeline.withArrays spec0 c (V7 m c) (fun w => (dat0 (atTc (V7 m)) c).arrAt w cfg0.N) (Proc.devRef .tc (Pipeline.arrRef spec0 15)) = _
  exact Pipeline.withArrays_arr spec0 launch0.win.arr_inj c _ _ 15
theorem outsH_9 (c : Dev nD) : outsH m 9 main_v17 c = (dat1 (atTc (V8 m (outsH m))) c).arrAt 2 cfg1.N := by
  show Pipeline.withArrays spec1 c (V8 m (outs0 m) c) (fun w => (dat1 (atTc (V8 m (outs0 m))) c).arrAt w cfg1.N) (Proc.devRef .tc (Pipeline.arrRef spec1 2)) = _
  exact Pipeline.withArrays_arr spec1 launch1.win.arr_inj c _ _ 2
theorem outsH_11 (c : Dev nD) : outsH m 11 main_v21 c = (dat2 (atTc (V10 m (outsH m))) c).arrAt 7 cfg2.N := by
  show Pipeline.withArrays spec2 c (V10 m (outs1 m) c) (fun w => (dat2 (atTc (V10 m (outs1 m))) c).arrAt w cfg2.N) (Proc.devRef .tc (Pipeline.arrRef spec2 7)) = _
  exact Pipeline.withArrays_arr spec2 launch2.win.arr_inj c _ _ 7

def pdats : (p : Fin 3) → (c : Dev nD) → Dat τ (Elt F) Unit ℕ (UR sig nD τ) ℕ (Pipeline.pin (pcfgs (F := F)) adm p) c
  | ⟨0, _⟩ => fun c => dat0 (atTc (V7 m)) c
  | ⟨1, _⟩ => fun c => dat1 (atTc (V8 m (outsH m))) c
  | ⟨2, _⟩ => fun c => dat2 (atTc (V10 m (outsH m))) c

abbrev frVariants : Variants := Variants.none
abbrev frL : GSem nD τ sig → Finset Unit := fun _ => ∅
abbrev frLv : GSem nD τ sig → Unit → ℕ := fun _ _ => 0
abbrev frRest (c : Dev nD) : sProp 𝕄 := iprop((∃ r, prngReg c r) ∗ ∃ W, owes (c : Thread nD τ) (0 : CellTallies nD τ sig Unit) W)
abbrev frE : Fin 4 → Dev nD → sProp 𝕄 := fun _ c => frRest c

theorem hF0 (c : Dev nD) (w : Fin cfg0.W) :
    (dat0 (atTc (V7 m)) c).arrAt w cfg0.N = atTc (V8 m (outsH m)) c (Pipeline.arrRef spec0 w) := by
  by_cases hw : w = 15
  · subst hw
    refine (outsH_8 m c).symm.trans ?_
    show _ = Function.update (V7 m c) (Proc.devRef .tc main_v16) (outsH m 8 main_v16 c) (Proc.devRef .tc main_v16)
    rw [Function.update_self]
  · have hin : (cfg0.win w).isOut = false := by revert w; decide
    have hne : Pipeline.arrRef spec0 w ∉ ([main_v16] : List (Ref sig .tc)) := by revert w; decide
    rw [Dat.arrAt_in _ w hin, A_eq0]
    exact (V8_of m (outsH m) c _ hne).symm
theorem hrest0 (c : Dev nD) : ∀ b, b ∉ Finset.univ.image (Pipeline.arrRef spec0) → atTc (V8 m (outsH m)) c b = atTc (V7 m) c b :=
  fun b hb => V8_of m (outsH m) c b fun h =>
    hb (Finset.mem_image.mpr ⟨15, Finset.mem_univ _, (List.mem_singleton.mp h).symm⟩)

theorem hF1 (c : Dev nD) (w : Fin cfg1.W) :
    (dat1 (atTc (V8 m (outsH m))) c).arrAt w cfg1.N = atTc (V9 m (outsH m)) c (Pipeline.arrRef spec1 w) := by
  by_cases hw : w = 2
  · subst hw
    refine (outsH_9 m c).symm.trans ?_
    show _ = Function.update (V8 m (outsH m) c) (Proc.devRef .tc main_v17) (outsH m 9 main_v17 c) (Proc.devRef .tc main_v17)
    rw [Function.update_self]
  · have hin : (cfg1.win w).isOut = false := by revert w; decide
    have hne : Pipeline.arrRef spec1 w ∉ ([main_v17] : List (Ref sig .tc)) := by revert w; decide
    rw [Dat.arrAt_in _ w hin, A_eq1]
    exact (V9_of m (outsH m) c _ hne).symm
theorem hrest1 (c : Dev nD) : ∀ b, b ∉ Finset.univ.image (Pipeline.arrRef spec1) → atTc (V9 m (outsH m)) c b = atTc (V8 m (outsH m)) c b :=
  fun b hb => V9_of m (outsH m) c b fun h =>
    hb (Finset.mem_image.mpr ⟨2, Finset.mem_univ _, (List.mem_singleton.mp h).symm⟩)

theorem hF2 (c : Dev nD) (w : Fin cfg2.W) :
    (dat2 (atTc (V10 m (outsH m))) c).arrAt w cfg2.N = atTc (V11 m (outsH m)) c (Pipeline.arrRef spec2 w) := by
  by_cases hw : w = 7
  · subst hw
    refine (outsH_11 m c).symm.trans ?_
    show _ = Function.update (V10 m (outsH m) c) (Proc.devRef .tc main_v21) (outsH m 11 main_v21 c) (Proc.devRef .tc main_v21)
    rw [Function.update_self]
  · have hin : (cfg2.win w).isOut = false := by revert w; decide
    have hne : Pipeline.arrRef spec2 w ∉ ([main_v21] : List (Ref sig .tc)) := by revert w; decide
    rw [Dat.arrAt_in _ w hin, A_eq2]
    exact (V11_of m (outsH m) c _ hne).symm
theorem hrest2 (c : Dev nD) : ∀ b, b ∉ Finset.univ.image (Pipeline.arrRef spec2) → atTc (V11 m (outsH m)) c b = atTc (V10 m (outsH m)) c b :=
  fun b hb => V11_of m (outsH m) c b fun h =>
    hb (Finset.mem_image.mpr ⟨7, Finset.mem_univ _, (List.mem_singleton.mp h).symm⟩)

set_option backward.isDefEq.respectTransparency.types false in
def reg0 : Pipeline.RegionSeg (pcfgs (F := F)) adm (pdats m) () defs₀ frVariants frL frLv 0 where
  win := launch0.win.to₀
  block_pos := launch0.block_pos
  stage_whole := launch0.stage_whole
  K := PEmpty
  osem k := k.elim
  ho := Pipeline.OwnSemFacts.none _
  hbody c := (body_obligation0 (atTc (V7 m)) c).loose
  hwaits := Pipeline.hwaits_of_owed_zero _ _ _ _ frL frLv 0 fun _ _ => rfl
  pre c := iprop(StableHlo.held (c : Thread nD τ) (Pipeline.ucRefs τ sig) (V7 m c) ∗ frE 0 c)
  post c := iprop(StableHlo.held (c : Thread nD τ) (Pipeline.ucRefs τ sig) (V8 m (outsH m) c) ∗ frE 1 c)
  X c := iprop(∃ r, prngReg c r)
  Y c := iprop(∃ r, prngReg c r)
  Z c := Pipeline.unscopedRest (Ix := Unit) (Name := ℕ) (U := UR sig nD τ) (Lvl := ℕ) spec0 c (atTc (V7 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (V7 m) c) fun w => A_eq0 _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (V7 m) c) (atTc (V8 m (outsH m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ frVariants frL frLv 1 where
  win := launch1.win.to₀
  block_pos := launch1.block_pos
  stage_whole := launch1.stage_whole
  K := PEmpty
  osem k := k.elim
  ho := Pipeline.OwnSemFacts.none _
  hbody c := (body_obligation1 (atTc (V8 m (outsH m))) c).loose
  hwaits := Pipeline.hwaits_of_owed_zero _ _ _ _ frL frLv 1 fun _ _ => rfl
  pre c := iprop(StableHlo.held (c : Thread nD τ) (Pipeline.ucRefs τ sig) (V8 m (outsH m) c) ∗ frE 1 c)
  post c := iprop(StableHlo.held (c : Thread nD τ) (Pipeline.ucRefs τ sig) (V9 m (outsH m) c) ∗ frE 2 c)
  X c := iprop(∃ r, prngReg c r)
  Y c := iprop(∃ r, prngReg c r)
  Z c := Pipeline.unscopedRest (Ix := Unit) (Name := ℕ) (U := UR sig nD τ) (Lvl := ℕ) spec1 c (atTc (V8 m (outsH m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (V8 m (outsH m)) c) fun w => A_eq1 _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none,
      show (pdats m 1 c).Φ (Fin.last _) = PhiS1 (atTc (V8 m (outsH m))) c cfg1.N le_rfl from rfl,
      PhiS1_pos _ c _ _ (by decide)]
    show _ ⊢ iprop((∃ r, prngReg c r) ∗ BI.emp
      ∗ Pipeline.scopedRest (Ix := Unit) (Name := ℕ) (U := UR sig nD τ) (Lvl := ℕ) (Val := Elt F) spec1 c)
    rw [scopedRest1_split]
    simp only [scM1, owns_whole]
    iintro ⟨⟨Hs, Hb⟩, Hr⟩
    isplitl [Hr]; · iexact Hr
    isplitr; · iempintro
    isplitl [Hs]; · iexists _; iexact Hs
    iexact Hb
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (V8 m (outsH m)) c) (atTc (V9 m (outsH m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m) () defs₀ frVariants frL frLv 2 where
  win := launch2.win.to₀
  block_pos := launch2.block_pos
  stage_whole := launch2.stage_whole
  K := PEmpty
  osem k := k.elim
  ho := Pipeline.OwnSemFacts.none _
  hbody c := (body_obligation2 (atTc (V10 m (outsH m))) c).loose
  hwaits := Pipeline.hwaits_of_owed_zero _ _ _ _ frL frLv 2 fun _ _ => rfl
  pre c := iprop(StableHlo.held (c : Thread nD τ) (Pipeline.ucRefs τ sig) (V10 m (outsH m) c) ∗ frE 2 c)
  post c := iprop(StableHlo.held (c : Thread nD τ) (Pipeline.ucRefs τ sig) (V11 m (outsH m) c) ∗ frE 3 c)
  X c := iprop(∃ r, prngReg c r)
  Y c := iprop(∃ r, prngReg c r)
  Z c := Pipeline.unscopedRest (Ix := Unit) (Name := ℕ) (U := UR sig nD τ) (Lvl := ℕ) spec2 c (atTc (V10 m (outsH m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (V10 m (outsH m)) c) fun w => A_eq2 _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (V10 m (outsH m)) c) (atTc (V11 m (outsH m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev frU := initOf (Pipeline.cells cfgs cellOf_inj) (Pipeline.launchToks cfgs cellOf_inj)

theorem hu₀ : (ownU frU : sProp 𝕄)
    ⊢ |={Set.univ}=> iprop(BI.own (emb₁ frU)
        ∗ bigSep Finset.univ fun _ : Dev nD => (BI.emp : sProp 𝕄)) := by
  iintro Hu; imodintro
  isplitl [Hu]
  · iapply (show (ownU frU : sProp 𝕄)
        ⊢ BI.own (emb₁ frU) from .rfl)
    iexact Hu
  iapply (show (BI.emp : sProp 𝕄) ⊢ bigSep Finset.univ (fun _ : Dev nD => (BI.emp : sProp 𝕄)) from by rw [BI.bigSep_emp_const])
  iempintro

theorem hE3 (c : Dev nD) : frE (F := F) 3 c ⊢ (iprop(∃ W, owes (c : Thread nD τ) (0 : CellTallies nD τ sig Unit) W) : sProp 𝕄) := by
  iintro ⟨-, HO⟩; iexact HO

/-- Memory `s` holds argument `b` on core `c` as the launch memory `m` does. -/
abbrev kept (c : Dev nD) (s : MemSt nD τ sig (Elt F)) (b : Ref sig .tc) : Prop :=
  s.mem ((c.tc : Thread nD τ).loc b) = m ((c.tc : Thread nD τ).loc b)

/-- The two results at the last valuation, every argument as launched. -/
abbrev Post (c : Dev nD) (s : MemSt nD τ sig (Elt F)) : Prop :=
  s.mem ((c.tc : Thread nD τ).loc main_v20) = V11 m (outsH m) c main_v20
  ∧ s.mem ((c.tc : Thread nD τ).loc main_v21) = V11 m (outsH m) c main_v21
  ∧ kept m c s main_arg0 ∧ kept m c s main_arg1 ∧ kept m c s main_arg2 ∧ kept m c s main_arg3 ∧ kept m c s main_arg4 ∧ kept m c s main_arg5 ∧ kept m c s main_arg6 ∧ kept m c s main_arg7 ∧ kept m c s main_arg8 ∧ kept m c s main_arg9 ∧ kept m c s main_arg10 ∧ kept m c s main_arg11 ∧ kept m c s main_arg12 ∧ kept m c s main_arg13 ∧ kept m c s main_arg14 ∧ kept m c s main_arg15 ∧ kept m c s main_arg16 ∧ kept m c s main_arg17 ∧ kept m c s main_arg18 ∧ kept m c s main_arg19 ∧ kept m c s main_arg20 ∧ kept m c s main_arg21

set_option backward.isDefEq.respectTransparency.types false in
/-- Every weakly fair execution of the program ends, nothing faulting, in a memory satisfying `Post` on every core. -/
theorem run_values (ρ : Dev nD → PrngReg) :
    θ_run defs (onTc (τ := τ) (main (F := F))) ⟨m, fun _ => 0, ρ⟩ (fun r => ∀ c : Dev nD, Post m c r.2) := by
  refine Pipeline.θ_run_regions_kit_dev (pcfgs (F := F)) adm (pdats m) () cellOf_inj emb₁ defs₀ frVariants frL frLv m ρ main
    (segs m (outsH m) frVariants frL frLv frE () (pdats m) (reg0 m) (reg1 m) (reg2 m))
    (fun c Q => by
      rewrite [main_chain c, Pipeline.Seg.run_eq_chain,
        show (segs m (outsH m) frVariants frL frLv frE () (pdats m) (reg0 m) (reg1 m) (reg2 m) c).map Pipeline.Seg.prog = [
          StableHlo.seq hostOps0, StableHlo.seq hostOps0_1, StableHlo.seq hostOps0_2, StableHlo.seq hostOps0_3,
          StableHlo.seq hostOps0_4, StableHlo.seq hostOps0_5, StableHlo.seq hostOps0_6,
          Prog.lift (.customCall (Pipeline.entry 0) ()), Prog.lift (.customCall (Pipeline.entry 1) ()),
          StableHlo.seq hostOps2, Prog.lift (.customCall (Pipeline.entry 2) ()) ] from rfl]
      exact .rfl)
    (fun c => by simp only [segs, Pipeline.Seg.pipes_host, Pipeline.Seg.pipes_region, Pipeline.Seg.pipes_nil]; decide)
    0 (fun _ _ => rfl) (fun _ => (BI.emp : sProp 𝕄))
    frU hu₀
    (T₀ := fun c => iprop(StableHlo.held (c : Thread nD τ) (Pipeline.ucRefs τ sig) (V0 m c) ∗ frE 0 c))
    (Tₙ := fun c => StableHlo.held (c : Thread nD τ) (Pipeline.ucRefs τ sig) (V11 m (outsH m) c))
    (hch := fun c => ⟨.rfl, .rfl, .rfl, .rfl, .rfl, .rfl, .rfl, .rfl, .rfl, .rfl, .rfl, sep_mono .rfl (hE3 c)⟩)
    (hinit := ?_) (QY := Post m) (hfin := fun c s' => ?_) (hQ := fun _ h => h)
  · refine Pipeline.initEach frL frLv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (V11 m (outsH m) c) s') $$ [Hh HSI]
    · isplitl [Hh] <;> iassumption
    icases Hr with ⟨%h, HSI⟩
    imodintro
    isplitr
    · ipureintro
      have hm := fun (b : Ref sig .tc) (hb : ¬ (Proc.devRef (τ := τ) .tc b).isScoped) =>
        h _ (Finset.mem_filter.mpr ⟨StableHlo.devRef_mem_tcRefs b, hb⟩)
      exact ⟨hm main_v20 (by decide), hm main_v21 (by decide),
        (hm main_arg0 (by decide)).trans (V11_main_arg0 m _ c),
        (hm main_arg1 (by decide)).trans (V11_main_arg1 m _ c),
        (hm main_arg2 (by decide)).trans (V11_main_arg2 m _ c),
        (hm main_arg3 (by decide)).trans (V11_main_arg3 m _ c),
        (hm main_arg4 (by decide)).trans (V11_main_arg4 m _ c),
        (hm main_arg5 (by decide)).trans (V11_main_arg5 m _ c),
        (hm main_arg6 (by decide)).trans (V11_main_arg6 m _ c),
        (hm main_arg7 (by decide)).trans (V11_main_arg7 m _ c),
        (hm main_arg8 (by decide)).trans (V11_main_arg8 m _ c),
        (hm main_arg9 (by decide)).trans (V11_main_arg9 m _ c),
        (hm main_arg10 (by decide)).trans (V11_main_arg10 m _ c),
        (hm main_arg11 (by decide)).trans (V11_main_arg11 m _ c),
        (hm main_arg12 (by decide)).trans (V11_main_arg12 m _ c),
        (hm main_arg13 (by decide)).trans (V11_main_arg13 m _ c),
        (hm main_arg14 (by decide)).trans (V11_main_arg14 m _ c),
        (hm main_arg15 (by decide)).trans (V11_main_arg15 m _ c),
        (hm main_arg16 (by decide)).trans (V11_main_arg16 m _ c),
        (hm main_arg17 (by decide)).trans (V11_main_arg17 m _ c),
        (hm main_arg18 (by decide)).trans (V11_main_arg18 m _ c),
        (hm main_arg19 (by decide)).trans (V11_main_arg19 m _ c),
        (hm main_arg20 (by decide)).trans (V11_main_arg20 m _ c),
        (hm main_arg21 (by decide)).trans (V11_main_arg21 m _ c)⟩
    · iexact HSI

end Cert.KernelIdeal.Hand

end
-- ==== Proof.LibIndexWrap.lean ====
import Idealize.ShloMosaic.Lib.ReduceAll
import Idealize.ShloMosaic.Lib.StableHlo.Predicate

namespace Idealize.ShloMosaic.IndexWrap

open Idealize.ShloMosaic

/-- A signed index word wrapped into an axis of extent n: a negative index counts from the end. -/
def wrapWord (n s : BitVec 32) : BitVec 32 := Scalar.select (IntOp.cmpi .slt s 0#32) (IntOp.addi s n) s

/-- A signed index in [-n, n) wraps into [0, n). -/
theorem wrap_inRange (n : Nat) (hn : n < 2 ^ 30) (s : BitVec 32) (h1 : -(n : Int) ≤ s.toInt) (h2 : s.toInt < n) :
    0 ≤ (wrapWord (BitVec.ofNat 32 n) s).toInt ∧ (wrapWord (BitVec.ofNat 32 n) s).toInt < n := by
  have hz : (0#32 : BitVec 32).toInt = 0 := by decide
  have hnI : (BitVec.ofNat 32 n).toInt = n := StableHlo.Predicate.toInt_ofNat_small n (by omega)
  unfold wrapWord Scalar.select
  by_cases hs : IntOp.cmpi .slt s 0#32 = 1
  · rw [if_pos hs]
    have hneg : s.toInt < 0 := by have := IntOp.cmpi_slt.1 hs; rwa [hz] at this
    have hsum : (IntOp.addi s (BitVec.ofNat 32 n)).toInt = s.toInt + n := by
      rw [IntOp.addi, BitVec.toInt_add, hnI]
      exact Int.bmod_eq_of_le (by omega) (by omega)
    rw [hsum]; omega
  · rw [if_neg hs]
    have hnn : ¬ s.toInt < 0 := fun h => hs (IntOp.cmpi_slt.2 (by rw [hz]; exact h))
    omega

/-- So the test 0 ≤ s' ≤ n − 1 of a wrapped index is the bit 1. -/
theorem rangeTest_wrap (n : Nat) (hn0 : 0 < n) (hn : n < 2 ^ 30) (hi : BitVec 32) (hhi : hi.toInt = (n : Int) - 1)
    (s : BitVec 32) (h1 : -(n : Int) ≤ s.toInt) (h2 : s.toInt < n) :
    IntOp.andi (IntOp.cmpi .sge (wrapWord (BitVec.ofNat 32 n) s) 0#32) (IntOp.cmpi .sle (wrapWord (BitVec.ofNat 32 n) s) hi) = 1#1 := by
  have hz : (0#32 : BitVec 32).toInt = 0 := by decide
  obtain ⟨h0, hlt⟩ := wrap_inRange n hn s h1 h2
  exact IntOp.andi_eq_one.2 ⟨IntOp.cmpi_sge.2 (by rw [hz]; exact h0), IntOp.cmpi_sle.2 (by rw [hhi]; omega)⟩

/-- A left fold by and from 1 over bits that are all 1 is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_ones f l _ (IntOp.andi_eq_one.2 ⟨h, hl a (List.mem_cons_self ..)⟩) (fun n hn => hl n (List.mem_cons_of_mem _ hn))

/-- Hence a reduce by and over an operand that is 1 everywhere is 1 at every index. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_ones x _ _ (hinit _) (fun i _ => hx i)

/-- Under a mask that is 1 everywhere a select is its first branch. -/
theorem select_of_ones {α : Type} {s : Shape} (c : IVec s 1) (a b : s.Idx → α) (hc : ∀ i, c i = 1#1) : select c a b = a :=
  funext fun i => by
    show Scalar.select (c i) (a i) (b i) = a i
    rw [hc i]; exact if_pos rfl

end Idealize.ShloMosaic.IndexWrap
-- ==== Proof.Spec.lean ====
import Idealize.ShloMosaic.PureOps
import Idealize.ShloMosaic.PureOps.Ideal
import proofs.«411533_j19043884990716_1_alg».proof.Proof.LibIndexWrap

noncomputable section

namespace Cert.Spec

open Idealize.ShloMosaic

/-- The activation x ↦ x·σ(x). -/
def silu (x : EReal) : EReal := x * Ideal.logistic x

/-- A row against one weight column, plus the bias. -/
def lin {K : ℕ} (x W : Fin K → EReal) (b : EReal) : EReal := (∑ k, x k * W k) + b

/-- One of the 256 units of an activated dense layer. -/
def hid {K : ℕ} (x : Fin K → EReal) (W : Fin K → Fin 256 → EReal) (b : Fin 256 → EReal) (j : Fin 256) : EReal :=
  silu (lin x (fun k => W k j) (b j))

/-- The table row an index word names: a negative word counts from the end; the result is clamped into [0, 2048). -/
def rowOf (w : BitVec 32) : Fin 2048 := ⟨min (IndexWrap.wrapWord 2048#32 w).toInt.toNat 2047, by omega⟩

section Edge

variable (X : Fin 261 → EReal) (D : Fin 3 → EReal) (dd : EReal)
  (We1 : Fin 261 → Fin 256 → EReal) (be1 : Fin 256 → EReal) (We2 : Fin 256 → Fin 256 → EReal) (be2 : Fin 256 → EReal)
  (Wx1 : Fin 261 → Fin 256 → EReal) (bx1 : Fin 256 → EReal) (Wx2 : Fin 256 → Fin 256 → EReal) (bx2 : Fin 256 → EReal)
  (Wx3 : Fin 256 → EReal) (bx3 : EReal) (Wi : Fin 256 → EReal) (bi : EReal)

/-- The edge network: two activated dense layers. -/
def phiE (j : Fin 256) : EReal := hid (hid X We1 be1) We2 be2 j

/-- The coordinate network: two activated dense layers, then a linear one to a scalar. -/
def phiX : EReal := lin (hid (hid X Wx1 bx1) Wx2 bx2) Wx3 bx3

/-- σ of a linear read-out of the edge network. -/
def gate : EReal := Ideal.logistic (lin (phiE X We1 be1 We2 be2) Wi bi)

/-- phiX / (distance + 1). -/
def wgt : EReal := Ideal.div (phiX X Wx1 bx1 Wx2 bx2 Wx3 bx3) (dd + Ideal.ofBits .f32 0x3F800000#32)

/-- An edge's message: 256 gated features, then the 3 weighted coordinate differences. -/
def edgeRow (c : Fin 259) : EReal :=
  if h : c.val < 256 then phiE X We1 be1 We2 be2 ⟨c.val, h⟩ * gate X We1 be1 We2 be2 Wi bi
  else wgt X dd Wx1 bx1 Wx2 bx2 Wx3 bx3 * D ⟨c.val - 256, by omega⟩

end Edge

/-- The node network's input row: features | aggregated messages | node attributes. -/
def nodeIn (f : Fin 128 → EReal) (a : Fin 256 → EReal) (na : Fin 8 → EReal) (k : Fin 392) : EReal :=
  if h : k.val < 128 then f ⟨k.val, h⟩
  else if h' : k.val < 384 then a ⟨k.val - 128, by omega⟩
  else na ⟨k.val - 384, by omega⟩

/-- A node's new features: the old ones plus two dense layers of its input row. -/
def nodeRow (f : Fin 128 → EReal) (a : Fin 256 → EReal) (na : Fin 8 → EReal)
    (Wn1 : Fin 392 → Fin 256 → EReal) (bn1 : Fin 256 → EReal) (Wn2 : Fin 256 → Fin 128 → EReal) (bn2 : Fin 128 → EReal)
    (j : Fin 128) : EReal :=
  f j + lin (hid (nodeIn f a na) Wn1 bn1) (fun k => Wn2 k j) (bn2 j)

/-- A weighted sum over all edges. -/
def aggAt (R C : Fin 65536 → EReal) : EReal := ∑ e, R e * C e

/-- The layer's arrays, each as a function of its coordinates. -/
structure Inputs where
  coords : Fin 2048 → Fin 3 → EReal
  feats : Fin 2048 → Fin 128 → EReal
  edges : Fin 65536 → Fin 2 → BitVec 32
  red : Fin 2048 → Fin 65536 → EReal
  nattr : Fin 2048 → Fin 8 → EReal
  eattr : Fin 65536 → Fin 4 → EReal
  We1 : Fin 261 → Fin 256 → EReal
  be1 : Fin 256 → EReal
  We2 : Fin 256 → Fin 256 → EReal
  be2 : Fin 256 → EReal
  Wx1 : Fin 261 → Fin 256 → EReal
  bx1 : Fin 256 → EReal
  Wx2 : Fin 256 → Fin 256 → EReal
  bx2 : Fin 256 → EReal
  Wx3 : Fin 256 → EReal
  bx3 : EReal
  Wn1 : Fin 392 → Fin 256 → EReal
  bn1 : Fin 256 → EReal
  Wn2 : Fin 256 → Fin 128 → EReal
  bn2 : Fin 128 → EReal
  Wi : Fin 256 → EReal
  bi : EReal

namespace Inputs

variable (I : Inputs)

/-- Coordinate difference of edge e's two nodes. -/
def diff (e : Fin 65536) (a : Fin 3) : EReal := I.coords (rowOf (I.edges e 0)) a - I.coords (rowOf (I.edges e 1)) a

/-- Its Euclidean length. -/
def dist (e : Fin 65536) : EReal := Ideal.sqrt (Ideal.ofBits .f32 0x00000000#32 + ∑ a, I.diff e a * I.diff e a)

/-- Edge e's input row: both nodes' features | squared distance | edge attributes. -/
def mlpIn (e : Fin 65536) (k : Fin 261) : EReal :=
  if h : k.val < 128 then I.feats (rowOf (I.edges e 0)) ⟨k.val, h⟩
  else if h' : k.val < 256 then I.feats (rowOf (I.edges e 1)) ⟨k.val - 128, by omega⟩
  else if h'' : k.val < 257 then I.dist e * I.dist e
  else I.eattr e ⟨k.val - 257, by omega⟩

/-- Edge e's message. -/
def msg (e : Fin 65536) (c : Fin 259) : EReal :=
  edgeRow (I.mlpIn e) (I.diff e) (I.dist e) I.We1 I.be1 I.We2 I.be2 I.Wx1 I.bx1 I.Wx2 I.bx2 I.Wx3 I.bx3 I.Wi I.bi c

/-- Node n's sum of the messages, weighted by its row of red. -/
def agg (n : Fin 2048) (c : Fin 259) : EReal := aggAt (I.red n) (fun e => I.msg e c)

/-- New coordinates: the old ones plus the last 3 sums. -/
def coordsOut (n : Fin 2048) (a : Fin 3) : EReal := I.coords n a + I.agg n ⟨256 + a.val, by omega⟩

/-- New features: the node network on the first 256 sums. -/
def featsOut (n : Fin 2048) (j : Fin 128) : EReal :=
  nodeRow (I.feats n) (fun k => I.agg n ⟨k.val, by omega⟩) (I.nattr n) I.Wn1 I.bn1 I.Wn2 I.bn2 j

end Inputs

end Cert.Spec

end
-- ==== Proof.ValR0Pay.lean ====
import proofs.«411533_j19043884990716_1_alg».proof.Proof.Gen.KernelIdeal.Skeleton
import proofs.«411533_j19043884990716_1_alg».proof.Proof.Spec
import Idealize.ShloMosaic.Lib.Pipeline.Value
import Idealize.ShloMosaic.Lib.ValueLayout
import Idealize.ShloMosaic.Lib.KernelVsHost
import Idealize.ShloMosaic.Lib.StackMember

noncomputable section

namespace Cert.KernelIdeal.Hand

open Idealize.ShloMosaic Idealize.ShloMosaic.ValueIdx Cert.KernelIdeal Cert.KernelIdeal.Gen

/-- Contents read at two indices with the same coordinates agree. -/
theorem read_eq_of_coords {s : Shape} {α : Type} (f : s.Idx → α) {i j : s.Idx} (h : ∀ a, (i a).val = (j a).val) : f i = f j :=
  congrArg f (funext fun a => Fin.ext (h a))

/-- With blocks of B rows and block index (t, 0), entry (r, k) of block t is entry (B·t + r, k) of the array. -/
theorem read_rowBlk {B N n : ℕ} {α : Type} (f : (⟨2, ![N, n]⟩ : Shape).Idx → α) {i : (⟨2, ![N, n]⟩ : Shape).Idx} {idx : Fin 2 → ℕ}
    {t : ℕ} (hidx : idx 0 = t ∧ idx 1 = 0) (r : Fin B) (k : Fin n)
    (hi : ∀ a, (i a).val = idx a * (![B, n] : Fin 2 → ℕ) a + (ix2 r k a).val) (p : Fin N) (hp : p.val = B * t + r.val) :
    f i = f (ix2 p k) :=
  read_eq_of_coords f fun a => (hi a).trans (by
    match a with
    | ⟨0, _⟩ => show idx 0 * B + r.val = p.val; rw [hidx.1, hp, Nat.mul_comm]
    | ⟨1, _⟩ => show idx 1 * n + k.val = k.val; rw [hidx.2, Nat.zero_mul, Nat.zero_add])

/-- Where every block index is zero on every axis, an entry of a block has the same coordinates in the array. -/
theorem wholeBlk_coords {G : Pipeline.Grid} (w : Pipeline.Window sig G) (t : Fin G.N) (y : (w.xblock (G.coords t)).Idx)
    (h : ∀ (t : Fin G.N) a, w.index t a = 0 := by decide +kernel) (a : Fin w.shape.rank) : ((w.rect t).emb y a : ℕ) = y a :=
  w.rect_emb_val_of_index_zero t a (h t a) y

section Layer
variable {m k n : ℕ} (D : DotDims ⟨2, ![m, k]⟩ ⟨2, ![k, n]⟩ ⟨2, ![m, n]⟩)
  (A : FVec Ideal ⟨2, ![m, k]⟩ .bf16) (W : FVec Ideal ⟨2, ![k, n]⟩ .bf16) (b : FVec Ideal ⟨1, ![n]⟩ .f32)
  (h : (⟨1, ![n]⟩ : Shape).ShapeCasts ⟨2, ![1, n]⟩) (h' : (⟨2, ![1, n]⟩ : Shape).Broadcasts ⟨2, ![m, n]⟩)

/-- A dense layer on a block of m rows: the rows against the weights, plus the bias laid along every row. -/
abbrev denseLayer : FVec Ideal ⟨2, ![m, n]⟩ .f32 :=
  addf (matmul D none A W (constant (F := Ideal) ⟨2, ![m, n]⟩ .f32 0x00000000#32)) (broadcastTo ⟨2, ![m, n]⟩ (shapeCast ⟨2, ![1, n]⟩ b h) h')

/-- Entry (r, j) of a dense layer is row r against column j of the weights, plus the bias at j. -/
theorem denseLayer_apply (hD : D = .plain m k n) (r : Fin m) (j : Fin n) (X : Fin k → EReal) (hA : ∀ c, A (ix2 r c) = X c) :
    denseLayer D A W b h h' (ix2 r j) = Spec.lin X (fun c => W (ix2 c j)) (b (ix1 j)) := by
  obtain rfl := funext hA
  subst hD
  exact congrArg₂ (· + ·)
    ((congrFun (matmul_zero_eq_dotGeneral _ none A W) _).trans (StackMember.dotGeneral_plain_apply none A W r j))
    ((broadcastTo_1b_ab_apply _ h' r j).trans (shapeCast_a_1a_apply b h 0 j))

end Layer

/-- A dense layer into 256 units followed by x·σ(x), at row r and unit j. -/
theorem hidLayer_apply {m k : ℕ} (D : DotDims ⟨2, ![m, k]⟩ ⟨2, ![k, 256]⟩ ⟨2, ![m, 256]⟩) (hD : D = .plain m k 256)
    (A : FVec Ideal ⟨2, ![m, k]⟩ .bf16) (W : FVec Ideal ⟨2, ![k, 256]⟩ .bf16) (b : FVec Ideal S256 .f32)
    (h : S256.ShapeCasts S1x256) (h' : S1x256.Broadcasts ⟨2, ![m, 256]⟩) (r : Fin m) (j : Fin 256)
    (X : Fin k → EReal) (hA : ∀ c, A (ix2 r c) = X c) :
    mulf (denseLayer D A W b h h') (logistic (denseLayer D A W b h h')) (ix2 r j)
      = Spec.hid X (fun c j => W (ix2 c j)) (fun j => b (ix1 j)) j :=
  congrArg Spec.silu (denseLayer_apply D A W b h h' hD r j X hA)

/-- A column repeated across n columns: entry (r, j) is the column's entry at row r. -/
theorem r0v_col_apply {α : Type} {n : ℕ} (v : S2048x1.Idx → α) (h : S2048x1.Broadcasts ⟨2, ![2048, n]⟩) (r : Fin 2048) (j : Fin n) :
    broadcastTo ⟨2, ![2048, n]⟩ v h (ix2 r j) = v (ix2 r (0 : Fin 1)) :=
  broadcastTo_apply v h (ix2 r j) (ix2 r (0 : Fin 1)) fun ax => by
    match ax with
    | ⟨0, _⟩ => rfl
    | ⟨1, _⟩ => rfl

theorem r0v_pay2_apply (x0 : Vec Ideal S2048x261 .f32) (i : S2048x261.Idx) : k0_pay2 (F := Ideal) x0 i = x0 i :=
  congrFun (shapeCast_self x0 _) i

section Edge
variable (x0 : Vec Ideal S2048x261 .f32) (x1 : Vec Ideal S2048x3 .f32) (x2 : Vec Ideal S2048x1 .f32)
  (x3 : Vec Ideal S261x256 .f32) (x4 : Vec Ideal S256 .f32) (x5 : Vec Ideal S256x256 .f32) (x6 : Vec Ideal S256 .f32)
  (x7 : Vec Ideal S261x256 .f32) (x8 : Vec Ideal S256 .f32) (x9 : Vec Ideal S256x256 .f32) (x10 : Vec Ideal S256 .f32)
  (x11 : Vec Ideal S256x1 .f32) (x12 : Vec Ideal S1 .f32) (x13 : Vec Ideal S256x1 .f32) (x14 : Vec Ideal S1 .f32)
  (r : Fin 2048)

/-- Two hidden layers on the r-th input row: the edge network. -/
theorem r0v_pay6_apply (j : Fin 256) :
    k0_pay6 (F := Ideal) x0 x3 x5 x4 x6 (ix2 r j)
      = Spec.phiE (fun k => x0 (ix2 r k)) (fun k j => x3 (ix2 k j)) (fun j => x4 (ix1 j)) (fun k j => x5 (ix2 k j))
          (fun j => x6 (ix1 j)) j := by
  unfold k0_pay6
  exact hidLayer_apply _ rfl _ (truncf .bf16 x5 bitsLt_bf16_f32) x6 _ _ r j _ fun c =>
    hidLayer_apply _ rfl (k0_pay2 x0) (truncf .bf16 x3 bitsLt_bf16_f32) x4 _ _ r c _ fun c => r0v_pay2_apply x0 _

/-- One hidden layer on the r-th input row, under the coordinate network's first weights. -/
theorem r0v_pay7_apply (j : Fin 256) :
    k0_pay7 (F := Ideal) x0 x7 x8 (ix2 r j)
      = Spec.hid (fun k => x0 (ix2 r k)) (fun k j => x7 (ix2 k j)) (fun j => x8 (ix1 j)) j := by
  unfold k0_pay7
  exact hidLayer_apply _ rfl (k0_pay2 x0) (truncf .bf16 x7 bitsLt_bf16_f32) x8 _ _ r j _ fun c => r0v_pay2_apply x0 _

/-- Row r, column q of the stored block is the message row at q of the block's r-th edge. -/
theorem r0v_pay_edgeRow (q : Fin 259) :
    k0_pay1 (F := Ideal) (k0_pay3 x9) (k0_pay4 x11) (k0_pay5 x13) (k0_pay6 x0 x3 x5 x4 x6) (k0_pay7 x0 x7 x8)
        (constant (F := Ideal) S2048x256 .f32 0x00000000#32) x10 x12 x14 x2 x1 (ix2 r q)
      = Cert.Spec.edgeRow (fun k => x0 (ix2 r k)) (fun a => x1 (ix2 r a)) (x2 (ix2 r (0 : Fin 1)))
          (fun k j => x3 (ix2 k j)) (fun j => x4 (ix1 j)) (fun k j => x5 (ix2 k j)) (fun j => x6 (ix1 j))
          (fun k j => x7 (ix2 k j)) (fun j => x8 (ix1 j)) (fun k j => x9 (ix2 k j)) (fun j => x10 (ix1 j))
          (fun k => x11 (ix2 k (0 : Fin 1))) (x12 (ix1 (0 : Fin 1))) (fun k => x13 (ix2 k (0 : Fin 1))) (x14 (ix1 (0 : Fin 1))) q := by
  unfold k0_pay1 Cert.Spec.edgeRow
  by_cases hq : q.val < 256
  · rw [dif_pos hq]
    refine (concatenate_pair_apply_left (s₁ := S2048x256) (s₂ := S2048x3) (1 : Fin S2048x259.rank) _ _ concatenates_S2048x256_S2048x3_S2048x259_d1 (ix2 r q) rfl (ix2 r ⟨q.val, hq⟩) fun b => ?_).trans ?_
    · match b with
      | ⟨0, _⟩ => rfl
      | ⟨1, _⟩ => rfl
    refine (mulf_apply _ _ _).trans (congrArg₂ (· * ·) (r0v_pay6_apply x0 x3 x4 x5 x6 r _) ((r0v_col_apply _ _ r _).trans ?_))
    exact congrArg Ideal.logistic (denseLayer_apply _ _ _ x14 _ _ rfl r 0 _ fun c => r0v_pay6_apply x0 x3 x4 x5 x6 r c)
  · rw [dif_neg hq]
    refine (concatenate_pair_apply_right (s₁ := S2048x256) (s₂ := S2048x3) (1 : Fin S2048x259.rank) _ _ concatenates_S2048x256_S2048x3_S2048x259_d1 (ix2 r q) rfl rfl (ix2 r ⟨q.val - 256, by omega⟩) (fun b hb => ?_) ?_).trans ?_
    · match b with
      | ⟨0, _⟩ => rfl
      | ⟨1, _⟩ => exact absurd rfl hb
    · show (q.val - 256) + 256 = q.val
      omega
    refine (mulf_apply _ _ _).trans (congrArg₂ (· * ·) ((r0v_col_apply _ _ r _).trans ?_) (congrFun (shapeCast_self x1 _) _))
    refine (divf_apply _ _ _).trans (congrArg₂ Ideal.div ?_ (congrArg (· + _) (congrFun (shapeCast_self x2 _) _)))
    exact denseLayer_apply _ _ _ x12 _ _ rfl r 0 _ fun c => hidLayer_apply _ rfl _ _ x10 _ _ r c _ fun c => r0v_pay7_apply x0 x7 x8 r c

end Edge

end Cert.KernelIdeal.Hand

end
-- ==== Proof.ValR0.lean ====
import proofs.«411533_j19043884990716_1_alg».proof.Proof.KIReg0Data
import proofs.«411533_j19043884990716_1_alg».proof.Proof.ValR0Pay

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

section Region0

variable (V : (c : Dev nD) → (b : Ref sig .tc) → Buf (Elt Ideal) ((c : Thread nD τ).loc b))

section Point
variable (c : Dev nD) (t : Fin cfg0.N)

theorem r0v_blk3 : (iblk0 V c 3 t : Vec Ideal S261x256 .f32) = V c main_arg6 :=
  funext fun y => read_eq_of_coords (V c main_arg6) (wholeBlk_coords win0_3 t y)
theorem r0v_blk4 : (iblk0 V c 4 t : Vec Ideal S256 .f32) = V c main_arg7 :=
  funext fun y => read_eq_of_coords (V c main_arg7) (wholeBlk_coords win0_4 t y)
theorem r0v_blk5 : (iblk0 V c 5 t : Vec Ideal S256x256 .f32) = V c main_arg8 :=
  funext fun y => read_eq_of_coords (V c main_arg8) (wholeBlk_coords win0_5 t y)
theorem r0v_blk6 : (iblk0 V c 6 t : Vec Ideal S256 .f32) = V c main_arg9 :=
  funext fun y => read_eq_of_coords (V c main_arg9) (wholeBlk_coords win0_6 t y)
theorem r0v_blk7 : (iblk0 V c 7 t : Vec Ideal S261x256 .f32) = V c main_arg10 :=
  funext fun y => read_eq_of_coords (V c main_arg10) (wholeBlk_coords win0_7 t y)
theorem r0v_blk8 : (iblk0 V c 8 t : Vec Ideal S256 .f32) = V c main_arg11 :=
  funext fun y => read_eq_of_coords (V c main_arg11) (wholeBlk_coords win0_8 t y)
theorem r0v_blk9 : (iblk0 V c 9 t : Vec Ideal S256x256 .f32) = V c main_arg12 :=
  funext fun y => read_eq_of_coords (V c main_arg12) (wholeBlk_coords win0_9 t y)
theorem r0v_blk10 : (iblk0 V c 10 t : Vec Ideal S256 .f32) = V c main_arg13 :=
  funext fun y => read_eq_of_coords (V c main_arg13) (wholeBlk_coords win0_10 t y)
theorem r0v_blk11 : (iblk0 V c 11 t : Vec Ideal S256x1 .f32) = V c main_arg14 :=
  funext fun y => read_eq_of_coords (V c main_arg14) (wholeBlk_coords win0_11 t y)
theorem r0v_blk12 : (iblk0 V c 12 t : Vec Ideal S1 .f32) = V c main_arg15 :=
  funext fun y => read_eq_of_coords (V c main_arg15) (wholeBlk_coords win0_12 t y)
theorem r0v_blk13 : (iblk0 V c 13 t : Vec Ideal S256x1 .f32) = V c main_arg20 :=
  funext fun y => read_eq_of_coords (V c main_arg20) (wholeBlk_coords win0_13 t y)
theorem r0v_blk14 : (iblk0 V c 14 t : Vec Ideal S1 .f32) = V c main_arg21 :=
  funext fun y => read_eq_of_coords (V c main_arg21) (wholeBlk_coords win0_14 t y)

section Rows
variable (r : Fin 2048) (p : Fin 65536) (hp : p.val = 2048 * t.val + r.val)
include hp
theorem r0v_blk0 (k : Fin 261) : (iblk0 V c 0 t : Vec Ideal S2048x261 .f32) (ix2 r k) = V c main_v15 (ix2 p k) :=
  read_rowBlk (V c main_v15) ((by decide +kernel : ∀ t : Fin grid0.N, win0_0.index t 0 = t.val ∧ win0_0.index t 1 = 0) t) r k
    (win0_0.rect_emb_val t _) p hp
theorem r0v_blk1 (k : Fin 3) : (iblk0 V c 1 t : Vec Ideal S2048x3 .f32) (ix2 r k) = V c main_v6 (ix2 p k) :=
  read_rowBlk (V c main_v6) ((by decide +kernel : ∀ t : Fin grid0.N, win0_1.index t 0 = t.val ∧ win0_1.index t 1 = 0) t) r k
    (win0_1.rect_emb_val t _) p hp
theorem r0v_blk2 (k : Fin 1) : (iblk0 V c 2 t : Vec Ideal S2048x1 .f32) (ix2 r k) = V c main_v10 (ix2 p k) :=
  read_rowBlk (V c main_v10) ((by decide +kernel : ∀ t : Fin grid0.N, win0_2.index t 0 = t.val ∧ win0_2.index t 1 = 0) t) r k
    (win0_2.rect_emb_val t _) p hp
end Rows

/-- Every edge's message row, from the arrays as they stand when the region starts. -/
def r0v_msgArr : S65536x259.Idx → EReal := fun i =>
  Cert.Spec.edgeRow (fun k => V c main_v15 (ix2 (i 0) k))
      (fun a => V c main_v6 (ix2 (i 0) a)) (V c main_v10 (ix2 (i 0) (0 : Fin 1)))
      (fun k j => V c main_arg6 (ix2 k j)) (fun j => V c main_arg7 (ix1 j))
      (fun k j => V c main_arg8 (ix2 k j)) (fun j => V c main_arg9 (ix1 j))
      (fun k j => V c main_arg10 (ix2 k j)) (fun j => V c main_arg11 (ix1 j))
      (fun k j => V c main_arg12 (ix2 k j)) (fun j => V c main_arg13 (ix1 j))
      (fun k => V c main_arg14 (ix2 k (0 : Fin 1))) (V c main_arg15 (ix1 (0 : Fin 1)))
      (fun k => V c main_arg20 (ix2 k (0 : Fin 1))) (V c main_arg21 (ix1 (0 : Fin 1))) (i 1)

theorem r0v_idx15 : ∀ t : Fin cfg0.N, win0_15.index t 0 = t.val ∧ win0_15.index t 1 = 0 :=
  (by decide +kernel : ∀ t : Fin grid0.N, _)

theorem r0v_hz2 : (![0, 0] : Fin 2 → Nat) = fun _ => 0 := funext fun a => by fin_cases a <;> rfl
theorem r0v_hz1 : (![0] : Fin 1 → Nat) = fun _ => 0 := funext fun a => by fin_cases a <;> rfl

/-- The block stored at grid point t is block t of the message array. -/
theorem r0v_flushed0_eq :
    (dat0 V c).flushed 15 t = ((cfg0.win 15).blk t).view.read (Elt Ideal) (r0v_msgArr V c) := by
  show (cfg0.win 15).cut (grid0.coords t) ((dat0 V c).after 15 t) = _
  rw [after0_15]
  unfold out0_15
  rw [View.canon_unit_zero r0v_hz2]
  simp only [View.ld_unit_zero (S := S2048x261) r0v_hz2, View.ld_unit_zero (S := S2048x3) r0v_hz2, View.ld_unit_zero (S := S2048x1) r0v_hz2,
    View.ld_unit_zero (S := S261x256) r0v_hz2, View.ld_unit_zero (S := S256x256) r0v_hz2, View.ld_unit_zero (S := S256x1) r0v_hz2,
    View.ld_unit_zero (S := S256) r0v_hz1, View.ld_unit_zero (S := S1) r0v_hz1]
  rw [r0v_blk3, r0v_blk4, r0v_blk5, r0v_blk6, r0v_blk7, r0v_blk8, r0v_blk9, r0v_blk10, r0v_blk11, r0v_blk12, r0v_blk13, r0v_blk14]
  funext y
  obtain ⟨r, q, rfl⟩ : ∃ (r : Fin 2048) (q : Fin 259), y = ix2 r q := ⟨y 0, y 1, eq_ix2 y⟩
  have ht : t.val < 32 := (N_0 : cfg0.N = 32) ▸ t.isLt
  obtain ⟨p, hp⟩ : ∃ p : Fin 65536, p.val = 2048 * t.val + r.val := ⟨⟨_, by omega⟩, rfl⟩
  refine (r0v_pay_edgeRow _ _ _ _ _ _ _ _ _ _ _ _ _ _ _ r q).trans ?_
  simp only [r0v_blk0 V c t r p hp, r0v_blk1 V c t r p hp, r0v_blk2 V c t r p hp]
  exact (read_rowBlk (r0v_msgArr V c) (r0v_idx15 t) r q (win0_15.rect_emb_val t _) p hp).symm

end Point

/-- The 2048-row blocks of the 32 grid points tile the 65536 rows. -/
theorem r0v_cover15 (i : S65536x259.Idx) : ∃ t : Fin cfg0.N, (cfg0.win 15).flush t = true ∧ i ∈ ((cfg0.win 15).blk t).view.set := by
  have hi0 : (i 0).val < 65536 := (i 0).isLt
  have hi1 : (i 1).val < 259 := (i 1).isLt
  have hN : cfg0.N = 32 := N_0
  obtain ⟨t, ht⟩ : ∃ t : Fin cfg0.N, t.val = (i 0).val / 2048 := ⟨⟨(i 0).val / 2048, by rw [hN]; omega⟩, rfl⟩
  obtain ⟨e0, e1⟩ := r0v_idx15 t
  refine ⟨t, flush0_15 t, ?_⟩
  show i ∈ ((View.whole main_v16).slice (win0_15.rect t)).set
  rw [View.set_slice_whole, Rect.mem_set_unit]
  intro a
  match a with
  | ⟨0, _⟩ => show win0_15.index t 0 * 2048 ≤ (i 0).val ∧ (i 0).val < win0_15.index t 0 * 2048 + 2048; rw [e0, ht]; omega
  | ⟨1, _⟩ => show win0_15.index t 1 * 259 ≤ (i 1).val ∧ (i 1).val < win0_15.index t 1 * 259 + 259; rw [e1]; omega

/-- After the region the output array holds every edge's message row. -/
theorem region0_value (c : Dev nD) (p : Fin 65536) (q : Fin 259) :
    (dat0 (F := Ideal) V c).arrAt 15 cfg0.N (ix2 p q) =
      Cert.Spec.edgeRow (fun k => (V c main_v15 : S65536x261.Idx → EReal) (ix2 p k))
      (fun a => (V c main_v6 : S65536x3.Idx → EReal) (ix2 p a)) ((V c main_v10 : S65536x1.Idx → EReal) (ix2 p (0 : Fin 1)))
      (fun k j => (V c main_arg6 : S261x256.Idx → EReal) (ix2 k j)) (fun j => (V c main_arg7 : S256.Idx → EReal) (ix1 j))
      (fun k j => (V c main_arg8 : S256x256.Idx → EReal) (ix2 k j)) (fun j => (V c main_arg9 : S256.Idx → EReal) (ix1 j))
      (fun k j => (V c main_arg10 : S261x256.Idx → EReal) (ix2 k j)) (fun j => (V c main_arg11 : S256.Idx → EReal) (ix1 j))
      (fun k j => (V c main_arg12 : S256x256.Idx → EReal) (ix2 k j)) (fun j => (V c main_arg13 : S256.Idx → EReal) (ix1 j))
      (fun k => (V c main_arg14 : S256x1.Idx → EReal) (ix2 k (0 : Fin 1))) ((V c main_arg15 : S1.Idx → EReal) (ix1 (0 : Fin 1)))
      (fun k => (V c main_arg20 : S256x1.Idx → EReal) (ix2 k (0 : Fin 1))) ((V c main_arg21 : S1.Idx → EReal) (ix1 (0 : Fin 1))) q :=
  congrFun ((dat0 V c).arrAt_eq_of_cover 15 (r0v_msgArr V c) (fun t _ => r0v_flushed0_eq V c t) r0v_cover15) (ix2 p q)

end Region0

end Cert.KernelIdeal.Hand

end
-- ==== Proof.LibOneHot.lean ====
import Mathlib.Data.EReal.Basic
import Mathlib.Algebra.BigOperators.Fin
import Mathlib.Data.Fintype.BigOperators
import Mathlib.Logic.Equiv.Fin.Basic
import Mathlib.Tactic.Ring

namespace Cert.LibOneHot

/-- Reindexing n = c·T + j turns the sum into an outer sum over c and an inner one over j. -/
theorem sum_blocks (B T : ℕ) (f : ℕ → EReal) :
    ∑ n : Fin (B * T), f n.val = ∑ c : Fin B, ∑ j : Fin T, f (c.val * T + j.val) := by
  rw [← (finProdFinEquiv (m := B) (n := T)).sum_comp (fun n => f n.val), Fintype.sum_prod_type]
  refine Finset.sum_congr rfl fun c _ => Finset.sum_congr rfl fun j _ => ?_
  congr 1
  simp only [finProdFinEquiv_apply_val]
  ring

end Cert.LibOneHot
-- ==== Proof.ValR1Sum.lean ====
import proofs.«411533_j19043884990716_1_alg».proof.Proof.Gen.KernelIdeal.Skeleton
import proofs.«411533_j19043884990716_1_alg».proof.Proof.Spec
import proofs.«411533_j19043884990716_1_alg».proof.Proof.LibOneHot
import Idealize.ShloMosaic.Lib.Pipeline.Value
import Idealize.ShloMosaic.Lib.ValueIdx
import Idealize.ShloMosaic.PureOps.Ideal.Laws
import Idealize.ShloMosaic.Lib.KernelVsHost
import Idealize.ShloMosaic.Lib.StackMember

noncomputable section

namespace Cert.KernelIdeal.Hand

open Cert.KernelIdeal Cert.KernelIdeal.Gen
open Idealize.ShloMosaic Idealize.ShloMosaic.ValueIdx

theorem r1v_k1_pay1_apply (r : Fin 1024) (q : Fin 259) : k1_pay1 (F := Ideal) (ix2 r q) = 0 := by
  unfold k1_pay1
  rw [shapeCast_self]
  exact Ideal.ofBits_zero_f32

/-- One step adds to the running value at (r, q) the dot product of row r of the left block and column q of the right one. -/
theorem r1v_k1_pay2_apply (x : Vec Ideal S1024x2048 .f32) (y : Vec Ideal S2048x259 .bf16) (a : Vec Ideal S1024x259 .f32)
    (r : Fin 1024) (q : Fin 259) :
    k1_pay2 (F := Ideal) x y a (ix2 r q) = a (ix2 r q) + ∑ e : Fin 2048, x (ix2 r e) * y (ix2 e q) := by
  unfold k1_pay2
  rw [shapeCast_self, shapeCast_self]
  exact congrArg (a (ix2 r q) + ·) ((congrFun (matmul_zero_eq_dotGeneral _ none _ _) _).trans
    (StackMember.dotGeneral_plain_apply none _ _ r q))

/-- The sum of f over edges 0 … 2048·k − 1, grouped in k blocks; beyond edge 65535 the summand is 0. -/
def r1v_psum (f : Fin 65536 → EReal) (k : ℕ) : EReal :=
  ∑ c ∈ Finset.range k, ∑ j : Fin 2048, if h : c * 2048 + j.val < 65536 then f ⟨c * 2048 + j.val, h⟩ else 0

theorem r1v_psum_succ (f : Fin 65536 → EReal) (k : ℕ) (hk : k < 32) :
    r1v_psum f (k + 1) = r1v_psum f k + ∑ j : Fin 2048, f ⟨2048 * k + j.val, by have := j.isLt; omega⟩ := by
  unfold r1v_psum
  rw [Finset.sum_range_succ]
  refine congrArg (_ + ·) (Finset.sum_congr rfl fun j _ => ?_)
  have hj := j.isLt
  rw [dif_pos (by omega)]
  exact congrArg f (Fin.ext (congrArg (· + j.val) (Nat.mul_comm k 2048)))

/-- With k = 32 the blocks exhaust the edges. -/
theorem r1v_psum_all (f : Fin 65536 → EReal) : r1v_psum f 32 = ∑ e : Fin 65536, f e := by
  unfold r1v_psum
  rw [Finset.sum_range fun c => ∑ j : Fin 2048, if h : c * 2048 + j.val < 65536 then f ⟨c * 2048 + j.val, h⟩ else 0]
  refine (Cert.LibOneHot.sum_blocks 32 2048 fun n => if h : n < 65536 then f ⟨n, h⟩ else 0).symm.trans ?_
  exact Finset.sum_congr rfl fun n _ => dif_pos n.isLt

/-- Induction on the point number 32·i + k: the running value at (r, q) covers blocks 0, …, k of the edges. -/
theorem r1v_acc_eq_psum (N : ℕ) (red : Vec Ideal S2048x65536 .f32) (msg : Vec Ideal S65536x259 .bf16)
    (X : (n : ℕ) → n < N → Vec Ideal S1024x2048 .f32) (Y : (n : ℕ) → n < N → Vec Ideal S2048x259 .bf16)
    (acc : (n : ℕ) → n < N → Vec Ideal S1024x259 .f32)
    (hX : ∀ (n : ℕ) (h : n < N) (r : Fin 1024) (e : Fin 2048) (row : Fin 2048) (col : Fin 65536),
      row.val = 1024 * (n / 32) + r.val → col.val = 2048 * (n % 32) + e.val → X n h (ix2 r e) = red (ix2 row col))
    (hY : ∀ (n : ℕ) (h : n < N) (e : Fin 2048) (q : Fin 259) (col : Fin 65536),
      col.val = 2048 * (n % 32) + e.val → Y n h (ix2 e q) = msg (ix2 col q))
    (h0 : ∀ (n : ℕ) (h : n < N), n % 32 = 0 → acc n h = k1_pay2 (F := Ideal) (X n h) (Y n h) (k1_pay1 (F := Ideal)))
    (hs : ∀ (n : ℕ) (h : n + 1 < N), (n + 1) % 32 ≠ 0 →
      acc (n + 1) h = k1_pay2 (F := Ideal) (X (n + 1) h) (Y (n + 1) h) (acc n (Nat.lt_of_succ_lt h))) :
    ∀ (n : ℕ) (h : n < N) (r : Fin 1024) (q : Fin 259) (row : Fin 2048), row.val = 1024 * (n / 32) + r.val →
      acc n h (ix2 r q) = r1v_psum (fun e => red (ix2 row e) * msg (ix2 e q)) (n % 32 + 1) := by
  have blk : ∀ (n : ℕ) (h : n < N) (r : Fin 1024) (q : Fin 259) (row : Fin 2048), row.val = 1024 * (n / 32) + r.val →
      ∑ e : Fin 2048, X n h (ix2 r e) * Y n h (ix2 e q)
        = ∑ j : Fin 2048, (fun e => red (ix2 row e) * msg (ix2 e q))
            ⟨2048 * (n % 32) + j.val, by have := j.isLt; have := Nat.mod_lt n (by omega : 0 < 32); omega⟩ :=
    fun n h r q row hrow => Finset.sum_congr rfl fun j _ => congrArg₂ (· * ·) (hX n h r j row _ hrow rfl) (hY n h j q _ rfl)
  intro n
  induction n with
  | zero =>
    intro h r q row hrow
    rw [h0 0 h rfl, r1v_k1_pay2_apply, r1v_k1_pay1_apply, blk 0 h r q row hrow, r1v_psum_succ _ (0 % 32) (by omega)]
    rfl
  | succ n ih =>
    intro h r q row hrow
    rw [r1v_psum_succ _ ((n + 1) % 32) (Nat.mod_lt _ (by omega)), ← blk (n + 1) h r q row hrow]
    by_cases hk : (n + 1) % 32 = 0
    · rw [h0 (n + 1) h hk, r1v_k1_pay2_apply, r1v_k1_pay1_apply, hk]
      rfl
    · rw [hs n h hk, r1v_k1_pay2_apply, ih (Nat.lt_of_succ_lt h) r q row (by omega),
        show n % 32 + 1 = (n + 1) % 32 by omega]

end Cert.KernelIdeal.Hand

end
-- ==== Proof.ValR1.lean ====
import proofs.«411533_j19043884990716_1_alg».proof.Proof.ValR1Sum
import proofs.«411533_j19043884990716_1_alg».proof.Proof.KIReg1Data
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem r1v_idx_facts1 : ∀ t : Fin cfg1.N,
    win1_0.index t (0 : Fin 2) = t.val / 32 ∧ win1_0.index t (1 : Fin 2) = t.val % 32
    ∧ win1_1.index t (0 : Fin 2) = t.val % 32 ∧ win1_1.index t (1 : Fin 2) = 0
    ∧ win1_2.index t (0 : Fin 2) = t.val / 32 ∧ win1_2.index t (1 : Fin 2) = 0 :=
  (by decide +kernel : ∀ t : Fin grid1.N, _)

theorem r1v_N1 : cfg1.N = 64 := by decide

section Value

variable (V : (c : Dev nD) → (b : Ref sig .tc) → Buf (Elt Ideal) ((c : Thread nD τ).loc b))

theorem r1v_lblk1_apply (c : Dev nD) (t : Fin cfg1.N) (r : Fin 1024) (e : Fin 2048) (row : Fin 2048) (col : Fin 65536)
    (hrow : row.val = 1024 * (t.val / 32) + r.val) (hcol : col.val = 2048 * (t.val % 32) + e.val) :
    lblk1 V c t (ix2 r e) = V c main_arg3 (ix2 row col) := by
  obtain ⟨e0, e1, -, -, -, -⟩ := r1v_idx_facts1 t
  show V c main_arg3 (((cfg1.win 0).blk t).view.emb (ix2 r e)) = V c main_arg3 (ix2 row col)
  refine congrArg (V c main_arg3) (funext fun a => Fin.ext ?_)
  match a with
  | ⟨0, _⟩ => show win1_0.index t (0 : Fin 2) * 1024 + 1 * r.val = row.val; omega
  | ⟨1, _⟩ => show win1_0.index t (1 : Fin 2) * 2048 + 1 * e.val = col.val; omega

theorem r1v_rblk1_apply (c : Dev nD) (t : Fin cfg1.N) (e : Fin 2048) (q : Fin 259) (col : Fin 65536)
    (hcol : col.val = 2048 * (t.val % 32) + e.val) :
    rblk1 V c t (ix2 e q) = V c main_v16 (ix2 col q) := by
  obtain ⟨-, -, e2, e3, -, -⟩ := r1v_idx_facts1 t
  show V c main_v16 (((cfg1.win 1).blk t).view.emb (ix2 e q)) = V c main_v16 (ix2 col q)
  refine congrArg (V c main_v16) (funext fun a => Fin.ext ?_)
  match a with
  | ⟨0, _⟩ => show win1_1.index t (0 : Fin 2) * 2048 + 1 * e.val = col.val; omega
  | ⟨1, _⟩ => show win1_1.index t (1 : Fin 2) * 259 + 1 * q.val = q.val; omega

abbrev r1v_accAt (c : Dev nD) (n : ℕ) (h : n < cfg1.N) : Vec Ideal S1024x259 .f32 := (outsAt1 V c n h).2

/-- At k = 31 the partial sum has run through every edge. -/
theorem r1v_accAt_last (c : Dev nD) (t : Fin cfg1.N) (h31 : t.val % 32 = 31) (r : Fin 1024) (q : Fin 259) (row : Fin 2048)
    (hrow : row.val = 1024 * (t.val / 32) + r.val) :
    r1v_accAt V c t.val t.isLt (ix2 r q)
      = Cert.Spec.aggAt (fun e => V c main_arg3 (ix2 row e)) (fun e => V c main_v16 (ix2 e q)) :=
  (r1v_acc_eq_psum cfg1.N (V c main_arg3) (V c main_v16) (fun n h => lblk1 V c ⟨n, h⟩) (fun n h => rblk1 V c ⟨n, h⟩)
    (r1v_accAt V c) (fun n h => r1v_lblk1_apply V c ⟨n, h⟩) (fun n h => r1v_rblk1_apply V c ⟨n, h⟩)
    (fun n h h0 => congrArg Prod.snd (outsAt1_first V c ⟨n, h⟩ h0))
    (fun n h hk => congrArg Prod.snd (outsAt1_step V c ⟨n + 1, h⟩ hk)) t.val t.isLt r q row hrow).trans
    (by rw [h31]; exact r1v_psum_all _)

abbrev r1v_aggArr (c : Dev nD) : Vec Ideal S2048x259 .f32 :=
  fun i => Cert.Spec.aggAt (fun e => V c main_arg3 (ix2 (i 0) e)) (fun e => V c main_v16 (ix2 e (i 1)))

theorem r1v_outBlk1_apply (G : Vec Ideal S2048x259 .f32) (t : Fin cfg1.N) (r : Fin 1024) (q : Fin 259) (row : Fin 2048)
    (hrow : row.val = 1024 * (t.val / 32) + r.val) :
    (((cfg1.win 2).blk t).view.read (Elt Ideal) G : Vec Ideal S1024x259 .f32) (ix2 r q) = G (ix2 row q) := by
  obtain ⟨-, -, -, -, e4, e5⟩ := r1v_idx_facts1 t
  show G (((cfg1.win 2).blk t).view.emb (ix2 r q)) = G _
  refine congrArg G (funext fun a => Fin.ext ?_)
  match a with
  | ⟨0, _⟩ => show win1_2.index t (0 : Fin 2) * 1024 + 1 * r.val = row.val; omega
  | ⟨1, _⟩ => show win1_2.index t (1 : Fin 2) * 259 + 1 * q.val = q.val; omega

theorem r1v_flushed1_eq (c : Dev nD) (t : Fin cfg1.N) (hf : (cfg1.win 2).flush t = true) :
    (dat1 V c).flushed 2 t = ((cfg1.win 2).blk t).view.read (Elt Ideal) (r1v_aggArr V c) := by
  have h31 : t.val % 32 = 31 := (flush1_2 t).mp hf
  have hN := r1v_N1
  have ht := t.isLt
  show (cfg1.win 2).cut (grid1.coords t) ((dat1 V c).after 2 t) = _
  rw [after1_2]
  have hfst : (outsAt1 V c t.val t.isLt).1 = r1v_accAt V c t.val t.isLt := by
    show _ = (outsAt1 V c t.val t.isLt).2
    rw [outsAt1_last V c t h31]
  rw [hfst]
  refine funext fun (j : S1024x259.Idx) => ?_
  obtain ⟨r, q, rfl⟩ : ∃ (r : Fin 1024) (q : Fin 259), j = ix2 r q := ⟨j 0, j 1, eq_ix2 j⟩
  have hr := r.isLt
  refine Eq.trans ?_ (r1v_outBlk1_apply (r1v_aggArr V c) t r q ⟨1024 * (t.val / 32) + r.val, by omega⟩ rfl).symm
  exact r1v_accAt_last V c t h31 r q ⟨1024 * (t.val / 32) + r.val, by omega⟩ rfl

theorem r1v_cover1_2 (i : S2048x259.Idx) : ∃ t : Fin cfg1.N, (cfg1.win 2).flush t = true ∧ i ∈ ((cfg1.win 2).blk t).view.set := by
  have hi0 : (i 0).val < 2048 := (i 0).isLt
  have hi1 : (i 1).val < 259 := (i 1).isLt
  obtain ⟨t, ht⟩ : ∃ t : Fin cfg1.N, t.val = 32 * ((i 0).val / 1024) + 31 := ⟨⟨_, by rw [r1v_N1]; omega⟩, rfl⟩
  obtain ⟨-, -, -, -, e4, e5⟩ := r1v_idx_facts1 t
  refine ⟨t, (flush1_2 t).mpr (by omega), ?_⟩
  show i ∈ ((View.whole main_v17).slice (win1_2.rect t)).set
  rw [View.set_slice_whole, Rect.mem_set_unit]
  intro a
  match a with
  | ⟨0, _⟩ =>
    show win1_2.index t (0 : Fin 2) * 1024 ≤ (i 0).val ∧ (i 0).val < win1_2.index t (0 : Fin 2) * 1024 + 1024
    omega
  | ⟨1, _⟩ =>
    show win1_2.index t (1 : Fin 2) * 259 ≤ (i 1).val ∧ (i 1).val < win1_2.index t (1 : Fin 2) * 259 + 259
    omega

theorem region1_array (c : Dev nD) : (dat1 V c).arrAt 2 cfg1.N = r1v_aggArr V c :=
  (dat1 V c).arrAt_eq_of_cover 2 (r1v_aggArr V c) (r1v_flushed1_eq V c) r1v_cover1_2

theorem region1_value (c : Dev nD) (n : Fin 2048) (q : Fin 259) :
    ((dat1 V c).arrAt 2 cfg1.N : Vec Ideal S2048x259 .f32) (ix2 n q)
      = Cert.Spec.aggAt (fun e => (V c main_arg3 : Vec Ideal S2048x65536 .f32) (ix2 n e))
          (fun e => (V c main_v16 : Vec Ideal S65536x259 .bf16) (ix2 e q)) :=
  congrFun (region1_array V c) (ix2 n q)

end Value

end Cert.KernelIdeal.Hand

end
-- ==== Proof.ValR2Pay.lean ====
import proofs.«411533_j19043884990716_1_alg».proof.Proof.ValR0Pay

noncomputable section

namespace Cert.KernelIdeal.Hand

open Idealize.ShloMosaic Idealize.ShloMosaic.ValueIdx Cert.KernelIdeal Cert.KernelIdeal.Gen

/-- Column k of the three joined blocks is entry k of the node network's input row. -/
theorem r2_concat_nodeIn (x0 : Vec Ideal S1024x128 .f32) (x1 : Vec Ideal S1024x256 .f32) (x2 : Vec Ideal S1024x8 .f32)
    (r : Fin 1024) (k : Fin 392) :
    concatenate S1024x392 1 [⟨S1024x128, x0⟩, ⟨S1024x256, x1⟩, ⟨S1024x8, x2⟩]
        concatenates_S1024x128_S1024x256_S1024x8_S1024x392_d1 (ix2 r k)
      = Cert.Spec.nodeIn (fun k => x0 (ix2 r k)) (fun k => x1 (ix2 r k)) (fun k => x2 (ix2 r k)) k := by
  have off : ∀ {w : ℕ} (c : Fin w) (b : Fin 2), b ≠ 1 → ((ix2 r c : (⟨2, ![1024, w]⟩ : Shape).Idx) b).val = (ix2 r k b).val := fun c b hb => by
    match b with
    | ⟨0, _⟩ => rfl
    | ⟨1, _⟩ => exact absurd rfl hb
  unfold Cert.Spec.nodeIn
  by_cases h : k.val < 128
  · rw [dif_pos h]
    exact concatenate_apply_piece (1 : Fin S1024x392.rank) _ _ (ix2 r k) 0 (by simp) S1024x128 x0 rfl rfl 0 rfl
      (ix2 r ⟨k.val, h⟩) (off _) (Nat.zero_add _)
  · rw [dif_neg h]
    by_cases h' : k.val < 384
    · rw [dif_pos h']
      exact concatenate_apply_piece (1 : Fin S1024x392.rank) _ _ (ix2 r k) 1 (by simp) S1024x256 x1 rfl rfl 128 rfl
        (ix2 r ⟨k.val - 128, by omega⟩) (off _) (by show 128 + (k.val - 128) = k.val; omega)
    · rw [dif_neg h']
      exact concatenate_apply_piece (1 : Fin S1024x392.rank) _ _ (ix2 r k) 2 (by simp) S1024x8 x2 rfl rfl 384 rfl
        (ix2 r ⟨k.val - 384, by have := k.isLt; omega⟩) (off _) (by show 384 + (k.val - 384) = k.val; omega)

/-- The stored block at (r, j): the features plus two dense layers of the joined row r, which is the node update. -/
theorem k2_pay1_apply (x0 : Vec Ideal S1024x128 .f32) (x1 : Vec Ideal S1024x256 .f32) (x2 : Vec Ideal S1024x8 .f32)
    (x3 : Vec Ideal S392x256 .f32) (x4 : Vec Ideal S256 .f32) (x5 : Vec Ideal S256x128 .f32) (x6 : Vec Ideal S128 .f32)
    (r : Fin 1024) (j : Fin 128) :
    k2_pay1 (F := Ideal) x0 x1 x2 x3 x5 x4 x6 x0 (ix2 r j)
      = Cert.Spec.nodeRow (fun k => x0 (ix2 r k)) (fun k => x1 (ix2 r k)) (fun k => x2 (ix2 r k))
          (fun k j => x3 (ix2 k j)) (fun j => x4 (ix1 j)) (fun k j => x5 (ix2 k j)) (fun j => x6 (ix1 j)) j := by
  unfold k2_pay1 Cert.Spec.nodeRow
  refine (addf_apply _ _ _).trans (congrArg (x0 (ix2 r j) + ·) (denseLayer_apply _ _ _ x6 _ _ rfl r j _ fun c => ?_))
  exact hidLayer_apply _ rfl _ _ x4 _ _ r c _ fun c' =>
    (r2_concat_nodeIn x0 _ x2 r c').trans (by rw [shapeCast_self])

end Cert.KernelIdeal.Hand

end
-- ==== Proof.ValR2.lean ====
import proofs.«411533_j19043884990716_1_alg».proof.Proof.KIReg2Data
import proofs.«411533_j19043884990716_1_alg».proof.Proof.ValR2Pay

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

section Value2

variable (V : (c : Dev nD) → (b : Ref sig .tc) → Buf (Elt Ideal) ((c : Thread nD τ).loc b))

section Point
variable (c : Dev nD) (t : Fin cfg2.N)

theorem r2_blk3 : (iblk2 V c 3 t : Vec Ideal S392x256 .f32) = V c main_arg16 :=
  funext fun y => read_eq_of_coords (V c main_arg16) (wholeBlk_coords win2_3 t y)
theorem r2_blk4 : (iblk2 V c 4 t : Vec Ideal S256 .f32) = V c main_arg17 :=
  funext fun y => read_eq_of_coords (V c main_arg17) (wholeBlk_coords win2_4 t y)
theorem r2_blk5 : (iblk2 V c 5 t : Vec Ideal S256x128 .f32) = V c main_arg18 :=
  funext fun y => read_eq_of_coords (V c main_arg18) (wholeBlk_coords win2_5 t y)
theorem r2_blk6 : (iblk2 V c 6 t : Vec Ideal S128 .f32) = V c main_arg19 :=
  funext fun y => read_eq_of_coords (V c main_arg19) (wholeBlk_coords win2_6 t y)

section Rows
variable (r : Fin 1024) (p : Fin 2048) (hp : p.val = 1024 * t.val + r.val)
include hp
theorem r2_blk0 (k : Fin 128) : (iblk2 V c 0 t : Vec Ideal S1024x128 .f32) (ix2 r k) = V c main_arg1 (ix2 p k) :=
  read_rowBlk (V c main_arg1) ((by decide +kernel : ∀ t : Fin grid2.N, win2_0.index t 0 = t.val ∧ win2_0.index t 1 = 0) t) r k
    (win2_0.rect_emb_val t _) p hp
theorem r2_blk1 (k : Fin 256) : (iblk2 V c 1 t : Vec Ideal S1024x256 .f32) (ix2 r k) = V c main_v18 (ix2 p k) :=
  read_rowBlk (V c main_v18) ((by decide +kernel : ∀ t : Fin grid2.N, win2_1.index t 0 = t.val ∧ win2_1.index t 1 = 0) t) r k
    (win2_1.rect_emb_val t _) p hp
theorem r2_blk2 (k : Fin 8) : (iblk2 V c 2 t : Vec Ideal S1024x8 .f32) (ix2 r k) = V c main_arg4 (ix2 p k) :=
  read_rowBlk (V c main_arg4) ((by decide +kernel : ∀ t : Fin grid2.N, win2_2.index t 0 = t.val ∧ win2_2.index t 1 = 0) t) r k
    (win2_2.rect_emb_val t _) p hp
end Rows

/-- Every node's update, from the arrays as they stand when the region starts. -/
def r2_nodeArr : S2048x128.Idx → EReal := fun i =>
  Cert.Spec.nodeRow (fun k => V c main_arg1 (ix2 (i 0) k))
    (fun k => V c main_v18 (ix2 (i 0) k))
    (fun k => V c main_arg4 (ix2 (i 0) k))
    (fun k j => V c main_arg16 (ix2 k j))
    (fun j => V c main_arg17 (ix1 j))
    (fun k j => V c main_arg18 (ix2 k j))
    (fun j => V c main_arg19 (ix1 j)) (i 1)

theorem r2_idx7 : ∀ t : Fin cfg2.N, win2_7.index t 0 = t.val ∧ win2_7.index t 1 = 0 :=
  (by decide +kernel : ∀ t : Fin grid2.N, _)

theorem r2_hz2 : (![0, 0] : Fin 2 → Nat) = fun _ => 0 := funext fun a => by fin_cases a <;> rfl
theorem r2_hz1 : (![0] : Fin 1 → Nat) = fun _ => 0 := funext fun a => by fin_cases a; rfl

/-- The block stored at grid point t is block t of that array. -/
theorem r2_flushed_eq :
    (dat2 V c).flushed 7 t = ((cfg2.win 7).blk t).view.read (Elt Ideal) (r2_nodeArr V c) := by
  show (cfg2.win 7).cut (grid2.coords t) ((dat2 V c).after 7 t) = _
  rw [after2_7]
  unfold out2_7
  rw [View.canon_unit_zero r2_hz2]
  simp only [View.ld_unit_zero (S := S1024x128) r2_hz2, View.ld_unit_zero (S := S1024x256) r2_hz2, View.ld_unit_zero (S := S1024x8) r2_hz2,
    View.ld_unit_zero (S := S392x256) r2_hz2, View.ld_unit_zero (S := S256x128) r2_hz2, View.ld_unit_zero (S := S256) r2_hz1,
    View.ld_unit_zero (S := S128) r2_hz1]
  rw [r2_blk3, r2_blk4, r2_blk5, r2_blk6]
  funext y
  obtain ⟨r, j, rfl⟩ : ∃ (r : Fin 1024) (j : Fin 128), y = ix2 r j := ⟨y 0, y 1, eq_ix2 y⟩
  have ht : t.val < 2 := (N_2 : cfg2.N = 2) ▸ t.isLt
  obtain ⟨p, hp⟩ : ∃ p : Fin 2048, p.val = 1024 * t.val + r.val := ⟨⟨_, by omega⟩, rfl⟩
  refine (k2_pay1_apply _ _ _ _ _ _ _ r j).trans ?_
  simp only [r2_blk0 V c t r p hp, r2_blk1 V c t r p hp, r2_blk2 V c t r p hp]
  exact (read_rowBlk (r2_nodeArr V c) (r2_idx7 t) r j (win2_7.rect_emb_val t _) p hp).symm

end Point

/-- The 1024-row blocks of the two grid points tile the 2048 rows. -/
theorem r2_cover (i : S2048x128.Idx) : ∃ t : Fin cfg2.N, (cfg2.win 7).flush t = true ∧ i ∈ ((cfg2.win 7).blk t).view.set := by
  have hi0 : (i 0).val < 2048 := (i 0).isLt
  have hi1 : (i 1).val < 128 := (i 1).isLt
  have hN : cfg2.N = 2 := N_2
  obtain ⟨t, ht⟩ : ∃ t : Fin cfg2.N, t.val = (i 0).val / 1024 := ⟨⟨(i 0).val / 1024, by rw [hN]; omega⟩, rfl⟩
  obtain ⟨e0, e1⟩ := r2_idx7 t
  refine ⟨t, flush2_7 t, ?_⟩
  show i ∈ ((View.whole main_v21).slice (win2_7.rect t)).set
  rw [View.set_slice_whole, Rect.mem_set_unit]
  intro a
  match a with
  | ⟨0, _⟩ => show win2_7.index t 0 * 1024 ≤ (i 0).val ∧ (i 0).val < win2_7.index t 0 * 1024 + 1024; rw [e0, ht]; omega
  | ⟨1, _⟩ => show win2_7.index t 1 * 128 ≤ (i 1).val ∧ (i 1).val < win2_7.index t 1 * 128 + 128; rw [e1]; omega

/-- After the region the output array holds every node's update. -/
theorem region2_value (c : Dev nD) (n : Fin 2048) (j : Fin 128) :
    ((dat2 (F := Ideal) V c).arrAt 7 cfg2.N : S2048x128.Idx → EReal) (ix2 n j)
      = Cert.Spec.nodeRow (fun k => (V c main_arg1 : S2048x128.Idx → EReal) (ix2 n k))
          (fun k => (V c main_v18 : S2048x256.Idx → EReal) (ix2 n k))
          (fun k => (V c main_arg4 : S2048x8.Idx → EReal) (ix2 n k))
          (fun k j => (V c main_arg16 : S392x256.Idx → EReal) (ix2 k j))
          (fun j => (V c main_arg17 : S256.Idx → EReal) (ix1 j))
          (fun k j => (V c main_arg18 : S256x128.Idx → EReal) (ix2 k j))
          (fun j => (V c main_arg19 : S128.Idx → EReal) (ix1 j)) j :=
  congrFun ((dat2 V c).arrAt_eq_of_cover 7 (r2_nodeArr V c) (fun t _ => r2_flushed_eq V c t) r2_cover) (ix2 n j)

end Value2

end Cert.KernelIdeal.Hand

end
-- ==== Proof.KInputs.lean ====
import proofs.«411533_j19043884990716_1_alg».proof.KernelIdeal
import Idealize.ShloMosaic.Lib.ValueIdx
import proofs.«411533_j19043884990716_1_alg».proof.Proof.Spec

noncomputable section

namespace Cert.KernelIdeal.Hand

open Idealize.ShloMosaic Idealize.ShloMosaic.TcCoe Idealize.ShloMosaic.ValueIdx Cert.KernelIdeal

/-- Each argument array, indexed by its coordinates, as one field of the inputs record. -/
def inputsOf (m : (ℓ : Loc nD τ sig) → Buf (Elt Ideal) ℓ) (c : Dev nD) : Cert.Spec.Inputs where
  coords n a := (m ((c.tc : Thread nD τ).loc main_arg0) : S2048x3.Idx → EReal) (ix2 n a)
  feats n k := (m ((c.tc : Thread nD τ).loc main_arg1) : S2048x128.Idx → EReal) (ix2 n k)
  edges e a := (m ((c.tc : Thread nD τ).loc main_arg2) : S65536x2.Idx → BitVec 32) (ix2 e a)
  red n e := (m ((c.tc : Thread nD τ).loc main_arg3) : S2048x65536.Idx → EReal) (ix2 n e)
  nattr n k := (m ((c.tc : Thread nD τ).loc main_arg4) : S2048x8.Idx → EReal) (ix2 n k)
  eattr e k := (m ((c.tc : Thread nD τ).loc main_arg5) : S65536x4.Idx → EReal) (ix2 e k)
  We1 k j := (m ((c.tc : Thread nD τ).loc main_arg6) : S261x256.Idx → EReal) (ix2 k j)
  be1 j := (m ((c.tc : Thread nD τ).loc main_arg7) : S256.Idx → EReal) (ix1 j)
  We2 k j := (m ((c.tc : Thread nD τ).loc main_arg8) : S256x256.Idx → EReal) (ix2 k j)
  be2 j := (m ((c.tc : Thread nD τ).loc main_arg9) : S256.Idx → EReal) (ix1 j)
  Wx1 k j := (m ((c.tc : Thread nD τ).loc main_arg10) : S261x256.Idx → EReal) (ix2 k j)
  bx1 j := (m ((c.tc : Thread nD τ).loc main_arg11) : S256.Idx → EReal) (ix1 j)
  Wx2 k j := (m ((c.tc : Thread nD τ).loc main_arg12) : S256x256.Idx → EReal) (ix2 k j)
  bx2 j := (m ((c.tc : Thread nD τ).loc main_arg13) : S256.Idx → EReal) (ix1 j)
  Wx3 k := (m ((c.tc : Thread nD τ).loc main_arg14) : S256x1.Idx → EReal) (ix2 k 0)
  bx3 := (m ((c.tc : Thread nD τ).loc main_arg15) : S1.Idx → EReal) (ix1 0)
  Wn1 k j := (m ((c.tc : Thread nD τ).loc main_arg16) : S392x256.Idx → EReal) (ix2 k j)
  bn1 j := (m ((c.tc : Thread nD τ).loc main_arg17) : S256.Idx → EReal) (ix1 j)
  Wn2 k j := (m ((c.tc : Thread nD τ).loc main_arg18) : S256x128.Idx → EReal) (ix2 k j)
  bn2 j := (m ((c.tc : Thread nD τ).loc main_arg19) : S128.Idx → EReal) (ix1 j)
  Wi k := (m ((c.tc : Thread nD τ).loc main_arg20) : S256x1.Idx → EReal) (ix2 k 0)
  bi := (m ((c.tc : Thread nD τ).loc main_arg21) : S1.Idx → EReal) (ix1 0)

end Cert.KernelIdeal.Hand

end
-- ==== Proof.ValHostTake.lean ====
import proofs.«411533_j19043884990716_1_alg».proof.Proof.Gen.KernelIdeal.Launch
import proofs.«411533_j19043884990716_1_alg».proof.Proof.LibIndexWrap
import proofs.«411533_j19043884990716_1_alg».proof.Proof.Spec
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx

section Gather
variable {α : Type}

abbrev host_rows2Dims (T C N : ℕ)
    (wf : GatherDims.WF ⟨2, ![T, C]⟩ ⟨2, ![N, 1]⟩ ⟨2, ![N, C]⟩ [1] [0] [] [0] [] 1 ![1, C]) :
    GatherDims ⟨2, ![T, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- Entry (p, k) of the gather is the table's entry in column k of the row numbered idx[p, 0], read signed and clamped to the table. -/
theorem host_gather_rows2_apply {T C N w : ℕ} (hT : 0 < T)
    (wf : GatherDims.WF ⟨2, ![T, C]⟩ ⟨2, ![N, 1]⟩ ⟨2, ![N, C]⟩ [1] [0] [] [0] [] 1 ![1, C])
    (x : (⟨2, ![T, C]⟩ : Shape).Idx → α) (idx : IVec ⟨2, ![N, 1]⟩ w) (p : Fin N) (k : Fin C) :
    Host.gather (host_rows2Dims T C N wf) x idx (ix2 p k)
      = x (ix2 ⟨min (idx (ix2 p 0)).toInt.toNat (T - 1), by omega⟩ k) := by
  unfold Host.gather
  congr 1
  funext a
  refine Fin.ext ?_
  match a with
  | ⟨0, _⟩ =>
    show (host_rows2Dims T C N wf).start (ix2 p k) idx 0 + (host_rows2Dims T C N wf).batchCoord (ix2 p k) 0
      + (host_rows2Dims T C N wf).offCoord (ix2 p k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (host_rows2Dims T C N wf).startIndexMap from List.mem_singleton.mpr rfl)]
    have hsi : (host_rows2Dims T C N wf).siIdx (ix2 p k) ⟨List.idxOf (0 : Fin 2) (host_rows2Dims T C N wf).startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨1, _⟩ =>
    have h10 : (1 : Fin 2) ∉ ([0] : List (Fin 2)) := by decide
    show (host_rows2Dims T C N wf).start (ix2 p k) idx 1 + (host_rows2Dims T C N wf).batchCoord (ix2 p k) 1
      + (host_rows2Dims T C N wf).offCoord (ix2 p k) 1 = k.val
    rw [GatherDims.batchCoord_eq_zero _ _ _ List.not_mem_nil]
    unfold GatherDims.start
    rw [dif_neg (show (1 : Fin 2) ∉ (host_rows2Dims T C N wf).startIndexMap from h10)]
    unfold GatherDims.offCoord
    rw [dif_pos (show (1 : Fin 2) ∈ (host_rows2Dims T C N wf).sKept from
      (GatherDims.mem_sKept _ _).mpr ⟨h10, List.not_mem_nil⟩)]
    simp only [Nat.zero_add, Nat.add_zero]
    rfl

end Gather

section Take

/-- Negative entries of the index vector are shifted up by 2048; the result is laid out as a column. -/
def host_wrapCol (idx : IVec S65536 32) : IVec S65536x1 32 :=
  broadcastInDim S65536x1 ![0] bcast_S65536_S65536x1_0
    (select (cmpi .slt idx (broadcastInDim S65536 ![] bcast_S_S65536 (constantI S_ 32 0#32)))
      (addi idx (broadcastInDim S65536 ![] bcast_S_S65536 (constantI S_ 32 2048#32))) idx)

def host_inRange (idx : IVec S65536 32) : IVec S65536 1 :=
  Host.reduce IntOp.andi
    (andi (cmpi .sge (host_wrapCol idx) (broadcastInDim S65536x1 ![] bcast_S_S65536x1 (constantI S_ 32 0#32)))
      (cmpi .sle (host_wrapCol idx) (broadcastInDim S65536x1 ![0, 1] bcast_S1x1_S65536x1_0_1
        (broadcastInDim S1x1 ![1] bcast_S1_S1x1_1 (constantI S1 32 2047#32)))))
    (constantI S_ 1 1#1) reducesTo_S65536x1_S65536_d1 h_S_

theorem host_wrapCol_apply (idx : IVec S65536 32) (e : Fin 65536) :
    host_wrapCol idx (ix2 e 0) = IndexWrap.wrapWord 2048#32 (idx (ix1 e)) := by
  unfold host_wrapCol
  refine (broadcastInDim_apply _ _ _ (ix2 e 0) (ix1 e) (fun a => ?_)).trans ?_
  · match a with
    | ⟨0, _⟩ => rfl
  · rfl

/-- If every entry lies in [-2048, 2048), each shifted entry lies in [0, 2047], so the conjunction along each row is 1. -/
theorem host_inRange_ones (idx : IVec S65536 32)
    (h : ∀ e : Fin 65536, -2048 ≤ (idx (ix1 e)).toInt ∧ (idx (ix1 e)).toInt < 2048) (j : S65536.Idx) :
    host_inRange idx j = 1#1 := by
  unfold host_inRange
  refine IndexWrap.reduce_andi_of_all _ _ _ _ (fun _ => rfl) (fun i => ?_) j
  obtain ⟨e, he⟩ : ∃ e : Fin 65536, i = ix2 e (0 : Fin 1) := ⟨i 0, by
    funext d
    match d with
    | ⟨0, _⟩ => rfl
    | ⟨1, _⟩ => exact Fin.ext (Nat.lt_one_iff.mp (i 1).isLt)⟩
  rw [he]
  show IntOp.andi (IntOp.cmpi .sge (host_wrapCol idx (ix2 e 0)) 0#32) (IntOp.cmpi .sle (host_wrapCol idx (ix2 e 0)) 2047#32) = 1#1
  rw [host_wrapCol_apply]
  exact IndexWrap.rangeTest_wrap 2048 (by decide) (by decide) 2047#32 (by decide) _ (h e).1 (h e).2

variable {C : ℕ} (b : S65536.BroadcastsInDim ⟨2, ![65536, C]⟩ (![0] : Fin 1 → Fin 2))
  (b0 : S_.BroadcastsInDim ⟨2, ![65536, C]⟩ (![] : Fin 0 → Fin 2))
  (wf : GatherDims.WF ⟨2, ![2048, C]⟩ ⟨2, ![65536, 1]⟩ ⟨2, ![65536, C]⟩ [1] [0] [] [0] [] 1 ![1, C])
  (tbl : (⟨2, ![2048, C]⟩ : Shape).Idx → EReal) (idx : IVec S65536 32)

/-- Shift the indices, gather the rows, and put NaN in each row whose shifted index misses [0, 2047]. -/
def host_take : (⟨2, ![65536, C]⟩ : Shape).Idx → EReal :=
  select (broadcastInDim _ ![0] b (host_inRange idx)) (Host.gather (host_rows2Dims 2048 C 65536 wf) tbl (host_wrapCol idx))
    (broadcastInDim _ ![] b0 (constant (F := Ideal) S_ .f32 0x7FC00000#32))

/-- Under the range hypothesis no row is replaced, so row e is the table's row rowOf (idx e). -/
theorem host_take_apply (h : ∀ e : Fin 65536, -2048 ≤ (idx (ix1 e)).toInt ∧ (idx (ix1 e)).toInt < 2048) (e : Fin 65536) (k : Fin C) :
    host_take b b0 wf tbl idx (ix2 e k) = tbl (ix2 (Cert.Spec.rowOf (idx (ix1 e))) k) := by
  unfold host_take
  rw [IndexWrap.select_of_ones (broadcastInDim _ ![0] b (host_inRange idx)) _ _
    (fun i => by unfold broadcastInDim; exact host_inRange_ones idx h _)]
  refine (host_gather_rows2_apply (by decide) wf tbl (host_wrapCol idx) e k).trans ?_
  refine congrArg (fun r => tbl (ix2 r k)) (Fin.ext ?_)
  show min (host_wrapCol idx (ix2 e 0)).toInt.toNat (2048 - 1) = min (IndexWrap.wrapWord 2048#32 (idx (ix1 e))).toInt.toNat 2047
  rw [host_wrapCol_apply]

end Take

end Cert.KernelIdeal.Hand

end
-- ==== Proof.ValHost.lean ====
import proofs.«411533_j19043884990716_1_alg».proof.Proof.Gen.KernelIdeal.Regions
import proofs.«411533_j19043884990716_1_alg».proof.Proof.KInputs
import proofs.«411533_j19043884990716_1_alg».proof.Proof.ValHostTake
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo

variable (m : (ℓ : Loc nD τ sig) → Buf (Elt Ideal) ℓ) (c : Dev nD)

abbrev host_W : List (Ref sig .tc) :=
  hostOps0_W ++ hostOps0_1_W ++ hostOps0_2_W ++ hostOps0_3_W ++ hostOps0_4_W ++ hostOps0_5_W ++ hostOps0_6_W

/-- An array assigned by none of the operations before the first kernel equals its initial value at each stage. -/
theorem host_args (r : Ref sig .tc) (h : r ∉ host_W) :
    (V1 m c r = V0 m c r ∧ V2 m c r = V0 m c r ∧ V3 m c r = V0 m c r)
      ∧ (V4 m c r = V0 m c r ∧ V5 m c r = V0 m c r ∧ V6 m c r = V0 m c r) ∧ V7 m c r = V0 m c r := by
  simp only [host_W, List.mem_append, not_or] at h
  obtain ⟨⟨⟨⟨⟨⟨h0, h1⟩, h2⟩, h3⟩, h4⟩, h5⟩, h6⟩ := h
  have e1 := V1_of m c r h0
  have e2 := (V2_of m c r h1).trans e1
  have e3 := (V3_of m c r h2).trans e2
  have e4 := (V4_of m c r h3).trans e3
  have e5 := (V5_of m c r h4).trans e4
  have e6 := (V6_of m c r h5).trans e5
  exact ⟨⟨e1, e2, e3⟩, ⟨e4, e5, e6⟩, (V7_of m c r h6).trans e6⟩

theorem host_arg (r : Ref sig .tc) (h : r ∉ host_W) : V7 m c r = m ((c : Thread nD τ).loc r) :=
  (host_args m c r h).2.2

/-- Likewise after the two kernels and the operations between them, when none of those assigns it either. -/
theorem host_arg_V10 (outs : Outs (F := Ideal)) (r : Ref sig .tc) (h : r ∉ host_W) (h8 : r ≠ main_v16) (h9 : r ≠ main_v17)
    (h10 : r ∉ hostOps2_W) : V10 m outs c r = m ((c : Thread nD τ).loc r) :=
  (V10_of m outs c r h10).trans <| (V9_of m outs c r fun hh => h9 (List.mem_singleton.mp hh)).trans <|
    (V8_of m outs c r fun hh => h8 (List.mem_singleton.mp hh)).trans (host_arg m c r h)

/-- Column a of the edge list, as a vector, at edge e. -/
theorem host_col_apply (X : S65536x2.Idx → BitVec 32) (a : Fin 2) (hs : S65536x2.Slices ![0, a.val] S65536x1) (e : Fin 65536) :
    shapeCast S65536 (extractStridedSlice S65536x1 ![0, a.val] X hs) shapeCasts_S65536x1_S65536 (ix1 e) = X (ix2 e a) := by
  refine (shapeCast_apply _ _ (ix1 e) (ix2 e 0) ?_).trans (slice2_axis1_apply a.val X hs e 0 a rfl)
  rw [Shape.rowMajor_val_two, Shape.rowMajor_val_one]; show e.val * 1 + 0 = e.val; omega

theorem host_V1_v1_apply (e : Fin 65536) : (V1 m c main_v1 : S65536.Idx → BitVec 32) (ix1 e) = (inputsOf m c).edges e 0 := by
  show StableHlo.after hostOps0 _ (Proc.devRef .tc main_v1) (ix1 e) = _
  after_results
  exact host_col_apply _ 0 _ e

theorem host_V1_v3_apply (e : Fin 65536) : (V1 m c main_v3 : S65536.Idx → BitVec 32) (ix1 e) = (inputsOf m c).edges e 1 := by
  show StableHlo.after hostOps0 _ (Proc.devRef .tc main_v3) (ix1 e) = _
  after_results
  exact host_col_apply _ 1 _ e

theorem host_nary3_result' {x a b y : Ref sig .tc}
    (f : ((k : Fin 3) → ((![x, a, b] : Fin 3 → Ref sig .tc) k).ty.Contents (Elt Ideal)) → y.ty.Contents (Elt Ideal)) (hxs hy)
    (F : Valuation τ sig (Elt Ideal)) :
    (StableHlo.nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

theorem host_V2_v4 : (V2 m c main_v4 : S65536x3.Idx → EReal)
    = host_take bcast_S65536_S65536x3_0 bcast_S_S65536x3 gather_S2048x3_S65536x1_S65536x3_1_0_n_n_0_1_13_wf (V1 m c main_arg0) (V1 m c main_v1) := by
  show StableHlo.after hostOps0_1 (V1 m c) (Proc.devRef .tc main_v4) = _
  generalize V1 m c = W
  after_results_simp
  simp only [StableHlo.TRef.ofBuf, StableHlo.TRef.toBuf, cast_eq]
  rfl

theorem host_V3_v5 : (V3 m c main_v5 : S65536x3.Idx → EReal)
    = host_take bcast_S65536_S65536x3_0 bcast_S_S65536x3 gather_S2048x3_S65536x1_S65536x3_1_0_n_n_0_1_13_wf (V2 m c main_arg0) (V2 m c main_v3) := by
  show StableHlo.after hostOps0_2 (V2 m c) (Proc.devRef .tc main_v5) = _
  generalize V2 m c = W
  after_results_simp
  simp only [StableHlo.TRef.ofBuf, StableHlo.TRef.toBuf, cast_eq]
  rfl

theorem host_V4_v6 : (V4 m c main_v6 : S65536x3.Idx → EReal)
    = subf (F := Ideal) (s := S65536x3) (φ := .f32) (V3 m c main_v4) (V3 m c main_v5) := by
  show StableHlo.after hostOps0_3 (V3 m c) (Proc.devRef .tc main_v6) = _
  generalize V3 m c = W
  after_results_simp

theorem host_V4_v10 : (V4 m c main_v10 : S65536x1.Idx → EReal)
    = Host.sqrt (broadcastInDim S65536x1 ![0] bcast_S65536_S65536x1_0
        (Host.reduceAdd
          (mulf (F := Ideal) (s := S65536x3) (φ := .f32) (subf (F := Ideal) (s := S65536x3) (φ := .f32) (V3 m c main_v4) (V3 m c main_v5))
            (subf (F := Ideal) (s := S65536x3) (φ := .f32) (V3 m c main_v4) (V3 m c main_v5)))
          (constant (F := Ideal) S_ .f32 0x00000000#32) reducesTo_S65536x3_S65536_d1 h_S_)) := by
  show StableHlo.after hostOps0_3 (V3 m c) (Proc.devRef .tc main_v10) = _
  generalize V3 m c = W
  after_results_simp

theorem host_V5_v11 : (V5 m c main_v11 : S65536x128.Idx → EReal)
    = host_take bcast_S65536_S65536x128_0 bcast_S_S65536x128 gather_S2048x128_S65536x1_S65536x128_1_0_n_n_0_1_1128_wf (V4 m c main_arg1) (V4 m c main_v1) := by
  show StableHlo.after hostOps0_4 (V4 m c) (Proc.devRef .tc main_v11) = _
  generalize V4 m c = W
  after_results_simp
  simp only [StableHlo.TRef.ofBuf, StableHlo.TRef.toBuf, cast_eq]
  rfl

theorem host_V6_v12 : (V6 m c main_v12 : S65536x128.Idx → EReal)
    = host_take bcast_S65536_S65536x128_0 bcast_S_S65536x128 gather_S2048x128_S65536x1_S65536x128_1_0_n_n_0_1_1128_wf (V5 m c main_arg1) (V5 m c main_v3) := by
  show StableHlo.after hostOps0_5 (V5 m c) (Proc.devRef .tc main_v12) = _
  generalize V5 m c = W
  after_results_simp
  simp only [StableHlo.TRef.ofBuf, StableHlo.TRef.toBuf, cast_eq]
  rfl

theorem host_V7_v15 : (V7 m c main_v15 : S65536x261.Idx → EReal)
    = concatenate S65536x261 1
        ([⟨S65536x256, concatenate S65536x256 1 ([⟨S65536x128, (V6 m c main_v11 : S65536x128.Idx → EReal)⟩,
            ⟨S65536x128, (V6 m c main_v12 : S65536x128.Idx → EReal)⟩] : List ((s : Shape) × (s.Idx → EReal)))
            concatenates_S65536x128_S65536x128_S65536x256_d1⟩,
         ⟨S65536x1, mulf (F := Ideal) (s := S65536x1) (φ := .f32) (V6 m c main_v10) (V6 m c main_v10)⟩,
         ⟨S65536x4, (V6 m c main_arg5 : S65536x4.Idx → EReal)⟩] : List ((s : Shape) × (s.Idx → EReal)))
        concatenates_S65536x256_S65536x1_S65536x4_S65536x261_d1 := by
  show StableHlo.after hostOps0_6 (V6 m c) (Proc.devRef .tc main_v15) = _
  generalize V6 m c = W
  simp (disch := decide) only [after_cons, after_nil, host_nary3_result', binary_result', binary_result_ne']
  rfl

/-- Piece p of arrays laid side by side, at the column that is its column j. -/
theorem host_cat1_apply {N w : ℕ} (C : ℕ) (xs : List ((s : Shape) × (s.Idx → EReal)))
    (h : Shape.Concatenates (xs.map (·.1)) ⟨2, ![N, w]⟩ (1 : Fin 2)) (p : ℕ)
    (x : (⟨2, ![N, C]⟩ : Shape).Idx → EReal) (hx : xs[p]? = some ⟨⟨2, ![N, C]⟩, x⟩) (pre : ℕ)
    (hpre : (((xs.take p).map (·.1)).map fun s => if h : s.rank = 2 then s.size ((1 : Fin 2).cast h.symm) else 0).sum = pre)
    (e : Fin N) (k : Fin w) (j : Fin C) (hk : pre + j.val = k.val) :
    concatenate ⟨2, ![N, w]⟩ (1 : Fin 2) xs h (ix2 e k) = x (ix2 e j) := by
  obtain ⟨hp, hxp⟩ := List.getElem?_eq_some_iff.mp hx
  exact concatenate_apply_piece (1 : Fin 2) xs h (ix2 e k) p hp _ x hxp rfl pre hpre (ix2 e j)
    (fun b => match b with
      | ⟨0, _⟩ => fun _ => rfl
      | ⟨1, _⟩ => fun hb => absurd rfl hb) hk

section Index

variable (hrng : ∀ (e : Fin 65536) (a : Fin 2),
  -2048 ≤ ((inputsOf m c).edges e a).toInt ∧ ((inputsOf m c).edges e a).toInt < 2048)
include hrng

/-- A take at column a of the edge list reads, at edge e, the table's row that the edge's word a names. -/
theorem host_take_edges {C : ℕ} (b : S65536.BroadcastsInDim ⟨2, ![65536, C]⟩ (![0] : Fin 1 → Fin 2))
    (b0 : S_.BroadcastsInDim ⟨2, ![65536, C]⟩ (![] : Fin 0 → Fin 2))
    (wf : GatherDims.WF ⟨2, ![2048, C]⟩ ⟨2, ![65536, 1]⟩ ⟨2, ![65536, C]⟩ [1] [0] [] [0] [] 1 ![1, C])
    (tbl : (⟨2, ![2048, C]⟩ : Shape).Idx → EReal) (idx : IVec S65536 32) (a : Fin 2)
    (hidx : ∀ e, idx (ix1 e) = (inputsOf m c).edges e a) (e : Fin 65536) (k : Fin C) :
    host_take b b0 wf tbl idx (ix2 e k) = tbl (ix2 (Cert.Spec.rowOf ((inputsOf m c).edges e a)) k) := by
  rw [host_take_apply b b0 wf tbl idx (fun e' => hidx e' ▸ hrng e' a), hidx]

theorem host_V2_v4_apply (e : Fin 65536) (a : Fin 3) :
    (V2 m c main_v4 : S65536x3.Idx → EReal) (ix2 e a)
      = (inputsOf m c).coords (Cert.Spec.rowOf ((inputsOf m c).edges e 0)) a := by
  rw [host_V2_v4, host_take_edges m c hrng _ _ _ _ _ 0 (host_V1_v1_apply m c), V1_of m c main_arg0 (by decide)]; rfl

theorem host_V3_v5_apply (e : Fin 65536) (a : Fin 3) :
    (V3 m c main_v5 : S65536x3.Idx → EReal) (ix2 e a)
      = (inputsOf m c).coords (Cert.Spec.rowOf ((inputsOf m c).edges e 1)) a := by
  rw [host_V3_v5, V2_of m c main_v3 (by decide), host_take_edges m c hrng _ _ _ _ _ 1 (host_V1_v3_apply m c),
    (host_args m c main_arg0 (by decide)).1.2.1]; rfl

theorem host_diff3_apply (e : Fin 65536) (a : Fin 3) :
    subf (F := Ideal) (s := S65536x3) (φ := .f32) (V3 m c main_v4) (V3 m c main_v5) (ix2 e a) = (inputsOf m c).diff e a := by
  rw [subf_apply, V3_of m c main_v4 (by decide), host_V2_v4_apply m c hrng, host_V3_v5_apply m c hrng]
  rfl

theorem host_diff (e : Fin 65536) (a : Fin 3) :
    (V7 m c main_v6 : S65536x3.Idx → EReal) (ix2 e a) = (inputsOf m c).diff e a := by
  rw [V7_of m c main_v6 (by decide), V6_of m c main_v6 (by decide), V5_of m c main_v6 (by decide), host_V4_v6]
  exact host_diff3_apply m c hrng e a

theorem host_V4_v10_apply (e : Fin 65536) :
    (V4 m c main_v10 : S65536x1.Idx → EReal) (ix2 e 0) = (inputsOf m c).dist e := by
  have hs : ∀ (X : FVec Ideal S65536x1 .f32) (i : S65536x1.Idx), Host.sqrt X i = Ideal.sqrt (X i) := fun _ _ => rfl
  rw [host_V4_v10, hs]
  unfold Cert.Spec.Inputs.dist
  refine congrArg Ideal.sqrt ?_
  refine (broadcastInDim_apply _ _ _ (ix2 e 0) (ix1 e) (fun a => ?_)).trans ?_
  · match a with
    | ⟨0, _⟩ => rfl
  have hR : S65536x3.Reduces [1] S65536 := by decide
  refine (Ideal.hostReduceAdd_single reducesTo_S65536x3_S65536_d1 hR _ _ (ix1 e)).trans ?_
  refine congrArg₂ (· + ·) rfl (Finset.sum_congr rfl (fun (k : Fin 3) _ => ?_))
  have hl : hR.lift (ix1 e) k = ix2 e k := by
    funext b
    match b with
    | ⟨0, _⟩ => rfl
    | ⟨1, _⟩ => rfl
  rw [hl, mulf_apply, host_diff3_apply m c hrng]

theorem host_dist (e : Fin 65536) :
    (V7 m c main_v10 : S65536x1.Idx → EReal) (ix2 e 0) = (inputsOf m c).dist e := by
  rw [V7_of m c main_v10 (by decide), V6_of m c main_v10 (by decide), V5_of m c main_v10 (by decide)]
  exact host_V4_v10_apply m c hrng e

theorem host_V5_v11_apply (e : Fin 65536) (k : Fin 128) :
    (V5 m c main_v11 : S65536x128.Idx → EReal) (ix2 e k)
      = (inputsOf m c).feats (Cert.Spec.rowOf ((inputsOf m c).edges e 0)) k := by
  rw [host_V5_v11, V4_of m c main_v1 (by decide), V3_of m c main_v1 (by decide), V2_of m c main_v1 (by decide),
    host_take_edges m c hrng _ _ _ _ _ 0 (host_V1_v1_apply m c), (host_args m c main_arg1 (by decide)).2.1.1]; rfl

theorem host_V6_v12_apply (e : Fin 65536) (k : Fin 128) :
    (V6 m c main_v12 : S65536x128.Idx → EReal) (ix2 e k)
      = (inputsOf m c).feats (Cert.Spec.rowOf ((inputsOf m c).edges e 1)) k := by
  rw [host_V6_v12, V5_of m c main_v3 (by decide), V4_of m c main_v3 (by decide), V3_of m c main_v3 (by decide),
    V2_of m c main_v3 (by decide), host_take_edges m c hrng _ _ _ _ _ 1 (host_V1_v3_apply m c),
    (host_args m c main_arg1 (by decide)).2.1.2.1]; rfl

theorem host_mlpIn (e : Fin 65536) (k : Fin 261) :
    (V7 m c main_v15 : S65536x261.Idx → EReal) (ix2 e k) = (inputsOf m c).mlpIn e k := by
  rw [host_V7_v15]
  unfold Cert.Spec.Inputs.mlpIn
  by_cases h2 : k.val < 256
  · refine (host_cat1_apply 256 _ _ 0 _ rfl 0 rfl e k ⟨k.val, h2⟩ (Nat.zero_add _)).trans ?_
    by_cases h1 : k.val < 128
    · rw [dif_pos h1]
      refine (host_cat1_apply 128 _ _ 0 _ rfl 0 rfl e ⟨k.val, h2⟩ ⟨k.val, h1⟩ (Nat.zero_add _)).trans ?_
      rw [V6_of m c main_v11 (by decide)]
      exact host_V5_v11_apply m c hrng e ⟨k.val, h1⟩
    · rw [dif_neg h1, dif_pos h2]
      refine (host_cat1_apply 128 _ _ 1 _ rfl 128 rfl e _ ⟨k.val - 128, by omega⟩
        (by show 128 + (k.val - 128) = k.val; omega)).trans ?_
      exact host_V6_v12_apply m c hrng e _
  · rw [dif_neg (by omega : ¬ k.val < 128), dif_neg h2]
    by_cases h3 : k.val < 257
    · rw [dif_pos h3]
      refine (host_cat1_apply 1 _ _ 1 _ rfl 256 rfl e k 0 (by show 256 + 0 = k.val; omega)).trans ?_
      rw [mulf_apply, V6_of m c main_v10 (by decide), V5_of m c main_v10 (by decide), host_V4_v10_apply m c hrng]
    · rw [dif_neg h3]
      refine (host_cat1_apply 4 _ _ 2 _ rfl 257 rfl e k ⟨k.val - 257, by omega⟩
        (by show 257 + (k.val - 257) = k.val; omega)).trans ?_
      exact congrFun (host_args m c main_arg5 (by decide)).2.1.2.2 _

end Index

section After

variable (outs : Outs (F := Ideal))

theorem host_v18 (n : Fin 2048) (k : Fin 256) :
    (V10 m outs c main_v18 : S2048x256.Idx → EReal) (ix2 n k)
      = (V9 m outs c main_v17 : S2048x259.Idx → EReal) (ix2 n ⟨k.val, by omega⟩) := by
  show StableHlo.after hostOps2 _ (Proc.devRef .tc main_v18) (ix2 n k) = _
  after_results_simp
  exact slice2_axis1_apply 0 _ _ n k _ (Nat.zero_add _).symm

theorem host_v20 (n : Fin 2048) (a : Fin 3) :
    (V10 m outs c main_v20 : S2048x3.Idx → EReal) (ix2 n a)
      = (inputsOf m c).coords n a + (V9 m outs c main_v17 : S2048x259.Idx → EReal) (ix2 n ⟨256 + a.val, by omega⟩) := by
  show StableHlo.after hostOps2 _ (Proc.devRef .tc main_v20) (ix2 n a) = _
  after_results_simp
  rw [addf_apply, slice2_axis1_apply 256 (V9 m outs c main_v17 : S2048x259.Idx → EReal) slices_S2048x259_S2048x3_0_256 n a
    ⟨256 + a.val, by omega⟩ rfl, V9_of m outs c main_arg0 (by decide), V8_of m outs c main_arg0 (by decide),
    host_arg m c main_arg0 (by decide)]
  rfl

theorem host_V8_v16 : V8 m outs c main_v16 = outs 8 main_v16 c := Function.update_self ..
theorem host_V9_v17 : V9 m outs c main_v17 = outs 9 main_v17 c := Function.update_self ..

end After

end Cert.KernelIdeal.Hand

end
-- ==== Proof.SpecArr.lean ====
import proofs.«411533_j19043884990716_1_alg».proof.Proof.Spec

noncomputable section

namespace Cert.Spec

open Idealize.ShloMosaic

/-- The two results as whole arrays. -/
def coordsArr (I : Inputs) : (⟨2, ![2048, 3]⟩ : Shape).Idx → EReal := fun i => I.coordsOut (i 0) (i 1)

def featsArr (I : Inputs) : (⟨2, ![2048, 128]⟩ : Shape).Idx → EReal := fun i => I.featsOut (i 0) (i 1)

end Cert.Spec

end
-- ==== Proof.KernelValue.lean ====
import proofs.«411533_j19043884990716_1_alg».proof.Proof.KIFrame
import proofs.«411533_j19043884990716_1_alg».proof.Proof.ValR0
import proofs.«411533_j19043884990716_1_alg».proof.Proof.ValR1
import proofs.«411533_j19043884990716_1_alg».proof.Proof.ValR2
import proofs.«411533_j19043884990716_1_alg».proof.Proof.ValHost
import proofs.«411533_j19043884990716_1_alg».proof.Proof.KInputs
import proofs.«411533_j19043884990716_1_alg».proof.Proof.SpecArr

noncomputable section

namespace Cert.KernelIdeal.Hand

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (c : Dev nD)
  (hrng : ∀ (e : Fin 65536) (a : Fin 2), -2048 ≤ ((inputsOf m c).edges e a).toInt ∧ ((inputsOf m c).edges e a).toInt < 2048)

include hrng

theorem kv_msg (e : Fin 65536) (q : Fin 259) :
    (V8 m (outsH m) c main_v16 : S65536x259.Idx → EReal) (ix2 e q) = (inputsOf m c).msg e q := by
  rw [host_V8_v16 m c (outsH m), outsH_8 m c]
  refine (region0_value (atTc (V7 m)) c e q).trans ?_
  simp (disch := decide) only [atTc, host_mlpIn m c hrng, host_diff m c hrng, host_dist m c hrng, host_arg m c]
  rfl

theorem kv_agg (n : Fin 2048) (q : Fin 259) :
    (V9 m (outsH m) c main_v17 : S2048x259.Idx → EReal) (ix2 n q) = (inputsOf m c).agg n q := by
  rw [host_V9_v17 m c (outsH m), outsH_9 m c]
  refine (region1_value (atTc (V8 m (outsH m))) c n q).trans ?_
  exact congrArg₂ Cert.Spec.aggAt
    (funext fun e => congrFun ((V8_of m (outsH m) c main_arg3 (by decide)).trans (host_arg m c main_arg3 (by decide))) (ix2 n e))
    (funext fun e => kv_msg m c hrng e q)

theorem kv_coords (n : Fin 2048) (a : Fin 3) :
    (V11 m (outsH m) c main_v20 : S2048x3.Idx → EReal) (ix2 n a) = (inputsOf m c).coordsOut n a := by
  rw [V11_of m (outsH m) c main_v20 (by decide)]
  refine (host_v20 m c (outsH m) n a).trans ?_
  exact congrArg (fun z => (inputsOf m c).coords n a + z) (kv_agg m c hrng n ⟨256 + a.val, by omega⟩)

theorem kv_feats (n : Fin 2048) (j : Fin 128) :
    (V11 m (outsH m) c main_v21 : S2048x128.Idx → EReal) (ix2 n j) = (inputsOf m c).featsOut n j := by
  have h11 : V11 m (outsH m) c main_v21 = outsH m 11 main_v21 c := Function.update_self ..
  rw [h11, outsH_11 m c]
  refine (region2_value (atTc (V10 m (outsH m))) c n j).trans ?_
  simp (disch := decide) only [atTc, host_v18 m c (outsH m), kv_agg m c hrng, host_arg_V10 m c (outsH m)]
  rfl

theorem kv_coordsArr : (V11 m (outsH m) c main_v20 : S2048x3.Idx → EReal) = Cert.Spec.coordsArr (inputsOf m c) :=
  funext fun i => by
    obtain ⟨n, a, rfl⟩ : ∃ (n : Fin 2048) (a : Fin 3), i = ix2 n a := ⟨i 0, i 1, eq_ix2 i⟩
    exact kv_coords m c hrng n a

theorem kv_featsArr : (V11 m (outsH m) c main_v21 : S2048x128.Idx → EReal) = Cert.Spec.featsArr (inputsOf m c) :=
  funext fun i => by
    obtain ⟨n, j, rfl⟩ : ∃ (n : Fin 2048) (j : Fin 128), i = ix2 n j := ⟨i 0, i 1, eq_ix2 i⟩
    exact kv_feats m c hrng n j

end Cert.KernelIdeal.Hand

end
-- ==== Proof.PreRange.lean ====
import proofs.«411533_j19043884990716_1_alg».proof.Pre_finite_inputs
import Idealize.ShloMosaic.Lib.ReduceAll
import Idealize.ShloMosaic.Lib.ValueIdx

noncomputable section

namespace Cert.PreRange

open Idealize.ShloMosaic Cert.Pre_finite_inputs

instance : Subsingleton S_.Idx := ⟨fun a b => funext fun d => d.elim0⟩

variable [Facts]

/-- The last two conjuncts alone: both signed range tests hold at every entry of the edge list. -/
theorem part6_range {F : FTy → Type} [FloatOps F] (a2 : IVec S65536x2 32) (v98 : IVec S_ 1) (v101 : IVec S1 1)
    (c39 : IVec S_ 1) (h : fn_part6 (F := F) a2 v98 v101 c39 = (fun _ => 1#1)) (i : S65536x2.Idx) :
    -2048 ≤ (a2 i).toInt ∧ (a2 i).toInt < 2048 := by
  have e := congrFun h ValueIdx.ix0
  dsimp only [fn_part6] at e
  obtain ⟨e1, ehi⟩ := IntOp.andi_eq_one.1 e
  obtain ⟨-, elo⟩ := IntOp.andi_eq_one.1 e1
  exact ⟨(show (4294965248#32 : BitVec 32).toInt = -2048 by decide) ▸ IntOp.cmpi_sge.1 (Host.reduce_andi_all _ _ _ _ _ elo i),
    (show (2048#32 : BitVec 32).toInt = 2048 by decide) ▸ IntOp.cmpi_slt.1 (Host.reduce_andi_all _ _ _ _ _ ehi i)⟩

/-- If the precondition is the bit 1, every entry of the edge list is in [-2048, 2048) as a signed integer. -/
theorem edges_range {F : FTy → Type} [FloatOps F]
    (a0 : FVec F S2048x3 .f32) (a1 : FVec F S2048x128 .f32) (a2 : IVec S65536x2 32)
    (a3 : FVec F S2048x65536 .f32) (a4 : FVec F S2048x8 .f32) (a5 : FVec F S65536x4 .f32)
    (a6 : FVec F S261x256 .f32) (a7 : FVec F S256 .f32) (a8 : FVec F S256x256 .f32) (a9 : FVec F S256 .f32)
    (a10 : FVec F S261x256 .f32) (a11 : FVec F S256 .f32) (a12 : FVec F S256x256 .f32) (a13 : FVec F S256 .f32)
    (a14 : FVec F S256x1 .f32) (a15 : FVec F S1 .f32) (a16 : FVec F S392x256 .f32) (a17 : FVec F S256 .f32)
    (a18 : FVec F S256x128 .f32) (a19 : FVec F S128 .f32) (a20 : FVec F S256x1 .f32) (a21 : FVec F S1 .f32)
    (h : Cert.Pre_finite_inputs.fn (F := F) a0 a1 a2 a3 a4 a5 a6 a7 a8 a9 a10 a11 a12 a13 a14 a15 a16 a17 a18 a19
      a20 a21 = (fun _ => 1#1))
    (i : S65536x2.Idx) : -2048 ≤ (a2 i).toInt ∧ (a2 i).toInt < 2048 :=
  part6_range (F := F) a2 _ _ _ h i

end Cert.PreRange
-- ==== Proof.LibGathers.lean ====
import Idealize.ShloMosaic.PureOps
import Idealize.ShloMosaic.Lib.ValueIdx

noncomputable section

open Idealize.ShloMosaic Idealize.ShloMosaic.ValueIdx

namespace Cert.Gathers

variable {α : Type}

/-- Dimension numbers of table[idx] for a [T, C] table and an [N, M, 1] array of start indices. -/
abbrev rows3Dims (T C N M : ℕ)
    (wf : GatherDims.WF ⟨2, ![T, C]⟩ ⟨3, ![N, M, 1]⟩ ⟨3, ![N, M, C]⟩ [2] [0] [] [0] [] 2 ![1, C]) :
    GatherDims ⟨2, ![T, C]⟩ ⟨3, ![N, M, 1]⟩ ⟨3, ![N, M, C]⟩ where
  offsetDims := [2]
  collapsedSliceDims := [0]
  operandBatchingDims := []
  startIndicesBatchingDims := []
  startIndexMap := [0]
  indexVectorDim := 2
  sliceSizes := ![1, C]
  wf := wf

/-- That gather at (p, q, k): the table at row idx[p, q, 0], read signed and clamped into [0, T − 1], and column k. -/
theorem gather_rows3_apply {T C N M w : ℕ} (hT : 0 < T)
    (wf : GatherDims.WF ⟨2, ![T, C]⟩ ⟨3, ![N, M, 1]⟩ ⟨3, ![N, M, C]⟩ [2] [0] [] [0] [] 2 ![1, C])
    (x : (⟨2, ![T, C]⟩ : Shape).Idx → α) (idx : IVec ⟨3, ![N, M, 1]⟩ w) (p : Fin N) (q : Fin M) (k : Fin C) :
    Host.gather (rows3Dims T C N M wf) x idx (ix3 p q k)
      = x (ix2 ⟨min (idx (ix3 p q 0)).toInt.toNat (T - 1), by omega⟩ k) := by
  unfold Host.gather
  congr 1
  funext a
  refine Fin.ext ?_
  match a with
  | ⟨0, _⟩ =>
    show (rows3Dims T C N M wf).start (ix3 p q k) idx 0 + (rows3Dims T C N M wf).batchCoord (ix3 p q k) 0
      + (rows3Dims T C N M wf).offCoord (ix3 p q k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rows3Dims T C N M wf).startIndexMap from List.mem_singleton.mpr rfl)]
    have hsi : (rows3Dims T C N M wf).siIdx (ix3 p q k) ⟨List.idxOf (0 : Fin 2) (rows3Dims T C N M wf).startIndexMap,
        List.idxOf_lt_length_iff.2 (List.mem_singleton.mpr rfl)⟩ = ix3 p q 0 := by
      funext b; refine Fin.ext ?_
      match b with
      | ⟨0, _⟩ => rfl
      | ⟨1, _⟩ => rfl
      | ⟨2, _⟩ => rfl
    rw [hsi]
    rfl
  | ⟨1, _⟩ =>
    have h10 : (1 : Fin 2) ∉ ([0] : List (Fin 2)) := by decide
    show (rows3Dims T C N M wf).start (ix3 p q k) idx 1 + (rows3Dims T C N M wf).batchCoord (ix3 p q k) 1
      + (rows3Dims T C N M wf).offCoord (ix3 p q k) 1 = k.val
    rw [GatherDims.batchCoord_eq_zero _ _ _ List.not_mem_nil]
    unfold GatherDims.start
    rw [dif_neg (show (1 : Fin 2) ∉ (rows3Dims T C N M wf).startIndexMap from h10)]
    unfold GatherDims.offCoord
    rw [dif_pos (show (1 : Fin 2) ∈ (rows3Dims T C N M wf).sKept from
      (GatherDims.mem_sKept _ _).mpr ⟨h10, List.not_mem_nil⟩)]
    simp only [Nat.zero_add, Nat.add_zero]
    rfl

end Cert.Gathers

end
-- ==== Proof.RefLib.lean ====
import proofs.«411533_j19043884990716_1_alg».proof.Proof.Gen.ReferenceIdeal
import proofs.«411533_j19043884990716_1_alg».proof.Proof.LibGathers
import proofs.«411533_j19043884990716_1_alg».proof.Proof.LibIndexWrap
import proofs.«411533_j19043884990716_1_alg».proof.Proof.Spec
import Idealize.ShloMosaic.Lib.IdealHost
import Idealize.ShloMosaic.Lib.Pipeline.Value
import Idealize.ShloMosaic.Lib.ValueIdx

noncomputable section

namespace Cert.ReferenceIdeal.Hand

open Cert.ReferenceIdeal Cert.ReferenceIdeal.Gen Idealize.ShloMosaic Idealize.ShloMosaic.ValueIdx Cert.Spec

theorem logistic_recip (x : EReal) :
    Ideal.div (Ideal.ofBits .f32 0x3F800000#32) (Ideal.ofBits .f32 0x3F800000#32 + Ideal.exp (-x)) = Ideal.logistic x := by
  rw [Ideal.ofBits_one_f32]; rfl

theorem silu_recip (x : EReal) :
    x * Ideal.div (Ideal.ofBits .f32 0x3F800000#32) (Ideal.ofBits .f32 0x3F800000#32 + Ideal.exp (-x)) = silu x := by
  rw [logistic_recip]; rfl

/-- σ spelt with negate, exponential, add and divide on whole arrays, read at an index. -/
theorem logistic_fn {s : Shape} (hb : S_.BroadcastsInDim s ![]) (y : FVec Ideal s .f32) (i : s.Idx) :
    Host.divf (broadcastInDim s ![] hb (constant S_ .f32 0x3F800000#32))
      (addf (broadcastInDim s ![] hb (constant S_ .f32 0x3F800000#32)) (Host.exp (Host.negf y))) i = Ideal.logistic (y i) := by
  show Ideal.div (broadcastInDim s ![] hb (constant (F := Ideal) S_ .f32 0x3F800000#32) i)
    (broadcastInDim s ![] hb (constant (F := Ideal) S_ .f32 0x3F800000#32) i + Ideal.exp (-(y i))) = _
  rw [broadcastInDim_apply _ hb _ i ix0 (fun a => a.elim0)]
  exact logistic_recip _

/-- x·σ(x) spelt the same way. -/
theorem silu_fn {s : Shape} (hb : S_.BroadcastsInDim s ![]) (y : FVec Ideal s .f32) (i : s.Idx) :
    mulf y (Host.divf (broadcastInDim s ![] hb (constant S_ .f32 0x3F800000#32))
      (addf (broadcastInDim s ![] hb (constant S_ .f32 0x3F800000#32)) (Host.exp (Host.negf y)))) i = silu (y i) :=
  congrArg (y i * ·) (logistic_fn hb y i)

/-- A bias plus a sum of products is a dense layer's entry once its factors and bias are identified. -/
theorem lin_eq {K : ℕ} {f g X W : Fin K → EReal} {b b' : EReal} (hf : ∀ k, f k = X k) (hg : ∀ k, g k = W k) (hb : b' = b) :
    (∑ k, f k * g k) + b' = lin X W b := by rw [funext hf, funext hg, hb]; rfl

/-- A row gather whose start indices are wrapped index words reads the rows the words name. -/
theorem gather_row {C : ℕ} (wf) (x : (⟨2, ![2048, C]⟩ : Shape).Idx → EReal) (idx : IVec ⟨3, ![65536, 2, 1]⟩ 32)
    (w : Fin 65536 → Fin 2 → BitVec 32) (h : ∀ e q, idx (ix3 e q 0) = IndexWrap.wrapWord 2048#32 (w e q))
    (e : Fin 65536) (q : Fin 2) (k : Fin C) :
    Host.gather (Cert.Gathers.rows3Dims 2048 C 65536 2 wf) x idx (ix3 e q k) = x (ix2 (rowOf (w e q)) k) := by
  rw [Cert.Gathers.gather_rows3_apply (T := 2048) (by decide)]
  exact congrArg (fun r => x (ix2 r k)) (Fin.ext (congrArg (fun v : BitVec 32 => min v.toInt.toNat 2047) (h e q)))

/-- Three arrays joined along the columns, read at (e, k): the piece whose column range holds k. -/
theorem concat3_at {α : Type} {N a b c t : ℕ}
    (h : Shape.Concatenates [(⟨2, ![N, a]⟩ : Shape), ⟨2, ![N, b]⟩, ⟨2, ![N, c]⟩] ⟨2, ![N, t]⟩ 1)
    (A : (⟨2, ![N, a]⟩ : Shape).Idx → α) (B : (⟨2, ![N, b]⟩ : Shape).Idx → α) (C : (⟨2, ![N, c]⟩ : Shape).Idx → α)
    (e : Fin N) (k : Fin t) (ht : t = a + b + c) :
    concatenate ⟨2, ![N, t]⟩ 1 [⟨_, A⟩, ⟨_, B⟩, ⟨_, C⟩] h (ix2 e k)
      = if h1 : k.val < a then A (ix2 e ⟨k.val, h1⟩)
        else if h2 : k.val < a + b then B (ix2 e ⟨k.val - a, by omega⟩)
        else C (ix2 e ⟨k.val - (a + b), by omega⟩) := by
  split_ifs with h1 h2
  · exact concatenate_apply_piece 1 _ _ (ix2 e k) 0 (by simp) _ A rfl rfl 0 rfl (ix2 e ⟨k.val, h1⟩)
      (fun b hb => by match b with | ⟨0, _⟩ => rfl | ⟨1, _⟩ => exact absurd rfl hb) (by show 0 + k.val = k.val; omega)
  · exact concatenate_apply_piece 1 _ _ (ix2 e k) 1 (by simp) _ B rfl rfl a rfl (ix2 e ⟨k.val - a, by omega⟩)
      (fun b hb => by match b with | ⟨0, _⟩ => rfl | ⟨1, _⟩ => exact absurd rfl hb) (by show a + (k.val - a) = k.val; omega)
  · exact concatenate_apply_piece 1 _ _ (ix2 e k) 2 (by simp) _ C rfl rfl (a + b) rfl (ix2 e ⟨k.val - (a + b), by omega⟩)
      (fun b hb => by match b with | ⟨0, _⟩ => rfl | ⟨1, _⟩ => exact absurd rfl hb) (by show a + b + (k.val - (a + b)) = k.val; omega)

end Cert.ReferenceIdeal.Hand

end
-- ==== Proof.RInputs.lean ====
import proofs.«411533_j19043884990716_1_alg».proof.ReferenceIdeal
import Idealize.ShloMosaic.Lib.ValueIdx
import proofs.«411533_j19043884990716_1_alg».proof.Proof.Spec

noncomputable section

namespace Cert.ReferenceIdeal.Hand

open Idealize.ShloMosaic Idealize.ShloMosaic.TcCoe Idealize.ShloMosaic.ValueIdx Cert.ReferenceIdeal

def inputsOf (m : (ℓ : Loc nD τ sig) → Buf (Elt Ideal) ℓ) (c : Dev nD) : Cert.Spec.Inputs where
  coords n a := (m ((c.tc : Thread nD τ).loc main_arg0) : S2048x3.Idx → EReal) (ix2 n a)
  feats n k := (m ((c.tc : Thread nD τ).loc main_arg1) : S2048x128.Idx → EReal) (ix2 n k)
  edges e a := (m ((c.tc : Thread nD τ).loc main_arg2) : S65536x2.Idx → BitVec 32) (ix2 e a)
  red n e := (m ((c.tc : Thread nD τ).loc main_arg3) : S2048x65536.Idx → EReal) (ix2 n e)
  nattr n k := (m ((c.tc : Thread nD τ).loc main_arg4) : S2048x8.Idx → EReal) (ix2 n k)
  eattr e k := (m ((c.tc : Thread nD τ).loc main_arg5) : S65536x4.Idx → EReal) (ix2 e k)
  We1 k j := (m ((c.tc : Thread nD τ).loc main_arg6) : S261x256.Idx → EReal) (ix2 k j)
  be1 j := (m ((c.tc : Thread nD τ).loc main_arg7) : S256.Idx → EReal) (ix1 j)
  We2 k j := (m ((c.tc : Thread nD τ).loc main_arg8) : S256x256.Idx → EReal) (ix2 k j)
  be2 j := (m ((c.tc : Thread nD τ).loc main_arg9) : S256.Idx → EReal) (ix1 j)
  Wx1 k j := (m ((c.tc : Thread nD τ).loc main_arg10) : S261x256.Idx → EReal) (ix2 k j)
  bx1 j := (m ((c.tc : Thread nD τ).loc main_arg11) : S256.Idx → EReal) (ix1 j)
  Wx2 k j := (m ((c.tc : Thread nD τ).loc main_arg12) : S256x256.Idx → EReal) (ix2 k j)
  bx2 j := (m ((c.tc : Thread nD τ).loc main_arg13) : S256.Idx → EReal) (ix1 j)
  Wx3 k := (m ((c.tc : Thread nD τ).loc main_arg14) : S256x1.Idx → EReal) (ix2 k 0)
  bx3 := (m ((c.tc : Thread nD τ).loc main_arg15) : S1.Idx → EReal) (ix1 0)
  Wn1 k j := (m ((c.tc : Thread nD τ).loc main_arg16) : S392x256.Idx → EReal) (ix2 k j)
  bn1 j := (m ((c.tc : Thread nD τ).loc main_arg17) : S256.Idx → EReal) (ix1 j)
  Wn2 k j := (m ((c.tc : Thread nD τ).loc main_arg18) : S256x128.Idx → EReal) (ix2 k j)
  bn2 j := (m ((c.tc : Thread nD τ).loc main_arg19) : S128.Idx → EReal) (ix1 j)
  Wi k := (m ((c.tc : Thread nD τ).loc main_arg20) : S256x1.Idx → EReal) (ix2 k 0)
  bi := (m ((c.tc : Thread nD τ).loc main_arg21) : S1.Idx → EReal) (ix1 0)

end Cert.ReferenceIdeal.Hand

end
-- ==== Proof.RefIn.lean ====
import proofs.«411533_j19043884990716_1_alg».proof.Proof.RInputs

noncomputable section

namespace Cert.ReferenceIdeal.Hand

open Idealize.ShloMosaic Idealize.ShloMosaic.TcCoe Idealize.ShloMosaic.ValueIdx Cert.ReferenceIdeal Cert.Spec

/-- The reference's 22 argument arrays as one record. -/
structure Args where
  x0 : (⟨S2048x3, .f32⟩ : BufTy).Contents (Elt Ideal)
  x1 : (⟨S2048x128, .f32⟩ : BufTy).Contents (Elt Ideal)
  x2 : (⟨S65536x2, .i32⟩ : BufTy).Contents (Elt Ideal)
  x3 : (⟨S2048x65536, .f32⟩ : BufTy).Contents (Elt Ideal)
  x4 : (⟨S2048x8, .f32⟩ : BufTy).Contents (Elt Ideal)
  x5 : (⟨S65536x4, .f32⟩ : BufTy).Contents (Elt Ideal)
  x6 : (⟨S261x256, .f32⟩ : BufTy).Contents (Elt Ideal)
  x7 : (⟨S256, .f32⟩ : BufTy).Contents (Elt Ideal)
  x8 : (⟨S256x256, .f32⟩ : BufTy).Contents (Elt Ideal)
  x9 : (⟨S256, .f32⟩ : BufTy).Contents (Elt Ideal)
  x10 : (⟨S261x256, .f32⟩ : BufTy).Contents (Elt Ideal)
  x11 : (⟨S256, .f32⟩ : BufTy).Contents (Elt Ideal)
  x12 : (⟨S256x256, .f32⟩ : BufTy).Contents (Elt Ideal)
  x13 : (⟨S256, .f32⟩ : BufTy).Contents (Elt Ideal)
  x14 : (⟨S256x1, .f32⟩ : BufTy).Contents (Elt Ideal)
  x15 : (⟨S1, .f32⟩ : BufTy).Contents (Elt Ideal)
  x16 : (⟨S392x256, .f32⟩ : BufTy).Contents (Elt Ideal)
  x17 : (⟨S256, .f32⟩ : BufTy).Contents (Elt Ideal)
  x18 : (⟨S256x128, .f32⟩ : BufTy).Contents (Elt Ideal)
  x19 : (⟨S128, .f32⟩ : BufTy).Contents (Elt Ideal)
  x20 : (⟨S256x1, .f32⟩ : BufTy).Contents (Elt Ideal)
  x21 : (⟨S1, .f32⟩ : BufTy).Contents (Elt Ideal)

/-- The specification's inputs read off the record. -/
def inputsX (A : Args) : Inputs where
  coords n a := A.x0 (ix2 n a)
  feats n k := A.x1 (ix2 n k)
  edges e a := A.x2 (ix2 e a)
  red n e := A.x3 (ix2 n e)
  nattr n k := A.x4 (ix2 n k)
  eattr e k := A.x5 (ix2 e k)
  We1 k j := A.x6 (ix2 k j)
  be1 j := A.x7 (ix1 j)
  We2 k j := A.x8 (ix2 k j)
  be2 j := A.x9 (ix1 j)
  Wx1 k j := A.x10 (ix2 k j)
  bx1 j := A.x11 (ix1 j)
  Wx2 k j := A.x12 (ix2 k j)
  bx2 j := A.x13 (ix1 j)
  Wx3 k := A.x14 (ix2 k 0)
  bx3 := A.x15 (ix1 0)
  Wn1 k j := A.x16 (ix2 k j)
  bn1 j := A.x17 (ix1 j)
  Wn2 k j := A.x18 (ix2 k j)
  bn2 j := A.x19 (ix1 j)
  Wi k := A.x20 (ix2 k 0)
  bi := A.x21 (ix1 0)

end Cert.ReferenceIdeal.Hand

end
-- ==== Proof.RefRun.lean ====
import proofs.«411533_j19043884990716_1_alg».proof.Proof.Gen.ReferenceIdeal.Run
import proofs.«411533_j19043884990716_1_alg».proof.Proof.Gen.ReferenceIdeal.Read
-- ==== Proof.RefVal1.lean ====
import proofs.«411533_j19043884990716_1_alg».proof.Proof.RefLib
import proofs.«411533_j19043884990716_1_alg».proof.Proof.RefIn
import proofs.«411533_j19043884990716_1_alg».proof.Proof.RefRun

noncomputable section

namespace Cert.ReferenceIdeal.Hand

open Cert.ReferenceIdeal Cert.ReferenceIdeal.Gen Idealize.ShloMosaic Idealize.ShloMosaic.ValueIdx Cert.ReferenceIdeal.Read Cert.Spec

variable (A : Args)

local notation "𝓘" => inputsX A

theorem v5_at (e : Fin 65536) (q : Fin 2) :
    val_main_v5 A.x2 (ix3 e q 0) = IndexWrap.wrapWord 2048#32 (A.x2 (ix2 e q)) := by
  rw [val_main_v5_apply, show idx_main_v5 (ix3 e q 0) = ix2 e q from eq_ix2 _, val_main_v4_apply, val_main_v1_apply,
    val_main_v3_apply, val_main_v0_apply, val_main_v2_apply]
  rfl

theorem v6_at (e : Fin 65536) (q : Fin 2) (a : Fin 3) :
    val_main_v6 A.x0 A.x2 (ix3 e q a) = A.x0 (ix2 (rowOf (A.x2 (ix2 e q))) a) :=
  gather_row gather_S2048x3_S65536x2x1_S65536x2x3_2_0_n_n_0_2_13_wf A.x0 _ _ (v5_at A) e q a

theorem v13_at (e : Fin 65536) (q : Fin 2) (k : Fin 128) :
    val_main_v13 A.x1 A.x2 (ix3 e q k) = A.x1 (ix2 (rowOf (A.x2 (ix2 e q))) k) :=
  gather_row gather_S2048x128_S65536x2x1_S65536x2x128_2_0_n_n_0_2_1128_wf A.x1 _ _ (v5_at A) e q k

theorem row3 (e : Fin 65536) (a : Fin 3) : idx_main_v16 (ix2 e a) = ix3 e 0 a :=
  funext fun b => Fin.ext (by
    match b with
    | ⟨0, _⟩ => show (e.val * 3 + a.val) / 3 = e.val; omega
    | ⟨1, _⟩ => rfl
    | ⟨2, _⟩ => show (e.val * 3 + a.val) % 3 = a.val; omega)

theorem v19_at (e : Fin 65536) (a : Fin 3) : val_main_v19 A.x0 A.x2 (ix2 e a) = (𝓘).diff e a := by
  rw [val_main_v19_apply, val_main_v16_apply, val_main_v15_apply, val_main_v18_apply, val_main_v17_apply, row3,
    show idx_main_v18 (ix2 e a) = ix3 e 0 a from row3 e a, show idx_main_v15 (ix3 e 0 a) = ix3 e 0 a from eq_ix3 _,
    show idx_main_v17 (ix3 e 0 a) = ix3 e 1 a from eq_ix3 _, v6_at A, v6_at A]
  rfl

theorem v20_at (e : Fin 65536) (z : Fin 1) : val_main_v20 A.x0 A.x2 (ix2 e z) = (𝓘).dist e := by
  rw [val_main_v20_apply, val_main_call0_v2_apply, val_main_call0_v1_apply]
  exact congrArg (fun s => Ideal.sqrt (Ideal.ofBits .f32 0x00000000#32 + s))
    (Finset.sum_congr rfl fun k _ => congrArg₂ (· * ·) (v19_at A e k) (v19_at A e k))

theorem v14_at (e : Fin 65536) (q : Fin 2) (k : Fin 128) (j : Fin 256) (h : j.val = q.val * 128 + k.val) :
    val_main_v14 A.x1 A.x2 (ix2 e j) = A.x1 (ix2 (rowOf (A.x2 (ix2 e q))) k) := by
  rw [val_main_v14_apply, ← v13_at A e q k]
  refine congrArg (val_main_v13 A.x1 A.x2) (funext fun b => Fin.ext ?_)
  match b with
  | ⟨0, _⟩ => show (e.val * 256 + j.val) / 256 = e.val; omega
  | ⟨1, _⟩ => show (e.val * 256 + j.val) / 128 % 2 = q.val; omega
  | ⟨2, _⟩ => show (e.val * 256 + j.val) % 128 = k.val; omega

theorem v22_at (e : Fin 65536) (k : Fin 261) : val_main_v22 A.x0 A.x1 A.x2 A.x5 (ix2 e k) = (𝓘).mlpIn e k := by
  refine (concat3_at _ _ _ _ e k (by rfl)).trans ?_
  unfold Inputs.mlpIn
  by_cases h1 : k.val < 128
  · rw [dif_pos (show k.val < 256 by omega), dif_pos h1]
    exact v14_at A e 0 ⟨k.val, h1⟩ _ (by show k.val = 0 * 128 + k.val; omega)
  · by_cases h2 : k.val < 256
    · rw [dif_pos h2, dif_neg h1, dif_pos h2]
      exact v14_at A e 1 ⟨k.val - 128, by omega⟩ _ (by show k.val = 1 * 128 + (k.val - 128); omega)
    · by_cases h3 : k.val < 257
      · rw [dif_neg h2, dif_pos (show k.val < 256 + 1 from h3), dif_neg h1, dif_neg h2, dif_pos h3, val_main_v21_apply, v20_at A]; rfl
      · rw [dif_neg h2, dif_neg (show ¬ k.val < 256 + 1 from h3), dif_neg h1, dif_neg h2, dif_neg h3]; rfl

end Cert.ReferenceIdeal.Hand

end
-- ==== Proof.RefVal2.lean ====
import proofs.«411533_j19043884990716_1_alg».proof.Proof.RefVal1

noncomputable section

namespace Cert.ReferenceIdeal.Hand

open Cert.ReferenceIdeal Cert.ReferenceIdeal.Gen Idealize.ShloMosaic Idealize.ShloMosaic.ValueIdx Cert.ReferenceIdeal.Read Cert.Spec

variable (A : Args)

local notation "𝓘" => inputsX A

theorem v27_hid (e : Fin 65536) (j : Fin 256) :
    val_main_v27 A.x0 A.x1 A.x2 A.x5 A.x6 A.x7 (ix2 e j) = hid ((𝓘).mlpIn e) (𝓘).We1 (𝓘).be1 j := by
  refine (silu_fn _ _ _).trans (congrArg silu ?_)
  rw [val_main_v26_apply, val_main_v23_apply, val_main_v25_apply, val_main_v24_apply]
  exact lin_eq (fun k => (congrArg _ (eq_ix2 _)).trans (v22_at A e k)) (fun k => congrArg _ (eq_ix2 _)) (congrArg _ (eq_ix1 _))

theorem v32_phiE (e : Fin 65536) (j : Fin 256) :
    val_main_v32 A.x0 A.x1 A.x2 A.x5 A.x6 A.x7 A.x8 A.x9 (ix2 e j) = phiE ((𝓘).mlpIn e) (𝓘).We1 (𝓘).be1 (𝓘).We2 (𝓘).be2 j := by
  refine (silu_fn _ _ _).trans (congrArg silu ?_)
  rw [val_main_v31_apply, val_main_v28_apply, val_main_v30_apply, val_main_v29_apply]
  exact lin_eq (fun k => (congrArg _ (eq_ix2 _)).trans (v27_hid A e k)) (fun k => congrArg _ (eq_ix2 _)) (congrArg _ (eq_ix1 _))

theorem v37_hid (e : Fin 65536) (j : Fin 256) :
    val_main_v37 A.x0 A.x1 A.x2 A.x5 A.x10 A.x11 (ix2 e j) = hid ((𝓘).mlpIn e) (𝓘).Wx1 (𝓘).bx1 j := by
  refine (silu_fn _ _ _).trans (congrArg silu ?_)
  rw [val_main_v36_apply, val_main_v33_apply, val_main_v35_apply, val_main_v34_apply]
  exact lin_eq (fun k => (congrArg _ (eq_ix2 _)).trans (v22_at A e k)) (fun k => congrArg _ (eq_ix2 _)) (congrArg _ (eq_ix1 _))

theorem v42_hid (e : Fin 65536) (j : Fin 256) :
    val_main_v42 A.x0 A.x1 A.x2 A.x5 A.x10 A.x11 A.x12 A.x13 (ix2 e j) = hid (hid ((𝓘).mlpIn e) (𝓘).Wx1 (𝓘).bx1) (𝓘).Wx2 (𝓘).bx2 j := by
  refine (silu_fn _ _ _).trans (congrArg silu ?_)
  rw [val_main_v41_apply, val_main_v38_apply, val_main_v40_apply, val_main_v39_apply]
  exact lin_eq (fun k => (congrArg _ (eq_ix2 _)).trans (v37_hid A e k)) (fun k => congrArg _ (eq_ix2 _)) (congrArg _ (eq_ix1 _))

theorem v46_phiX (e : Fin 65536) :
    val_main_v46 A.x0 A.x1 A.x2 A.x5 A.x10 A.x11 A.x12 A.x13 A.x14 A.x15 (ix2 e 0)
      = phiX ((𝓘).mlpIn e) (𝓘).Wx1 (𝓘).bx1 (𝓘).Wx2 (𝓘).bx2 (𝓘).Wx3 (𝓘).bx3 := by
  rw [val_main_v46_apply, val_main_v43_apply, val_main_v45_apply, val_main_v44_apply]
  exact lin_eq (fun k => (congrArg _ (eq_ix2 _)).trans (v42_hid A e k)) (fun k => congrArg _ (eq_ix2 _)) (congrArg _ (eq_ix1 _))

theorem v56_gate (e : Fin 65536) :
    val_main_v56 A.x0 A.x1 A.x2 A.x5 A.x6 A.x7 A.x8 A.x9 A.x20 A.x21 (ix2 e 0)
      = gate ((𝓘).mlpIn e) (𝓘).We1 (𝓘).be1 (𝓘).We2 (𝓘).be2 (𝓘).Wi (𝓘).bi := by
  refine (logistic_fn _ _ _).trans (congrArg Ideal.logistic ?_)
  rw [val_main_v50_apply, val_main_v47_apply, val_main_v49_apply, val_main_v48_apply]
  exact lin_eq (fun k => (congrArg _ (eq_ix2 _)).trans (v32_phiE A e k)) (fun k => congrArg _ (eq_ix2 _)) (congrArg _ (eq_ix1 _))

theorem v73_wgt (e : Fin 65536) :
    val_main_v73 A.x0 A.x1 A.x2 A.x5 A.x10 A.x11 A.x12 A.x13 A.x14 A.x15 (ix2 e 0)
      = wgt ((𝓘).mlpIn e) ((𝓘).dist e) (𝓘).Wx1 (𝓘).bx1 (𝓘).Wx2 (𝓘).bx2 (𝓘).Wx3 (𝓘).bx3 := by
  rw [val_main_v73_apply, v46_phiX A, val_main_v72_apply, v20_at A, val_main_v71_apply]; rfl

theorem v58_msg (e : Fin 65536) (j : Fin 256) :
    val_main_v58 A.x0 A.x1 A.x2 A.x5 A.x6 A.x7 A.x8 A.x9 A.x20 A.x21 (ix2 e j) = (𝓘).msg e ⟨j.val, by omega⟩ := by
  rw [val_main_v58_apply, val_main_v57_apply, show idx_main_v57 (ix2 e j) = ix2 e 0 from eq_ix2 _, v32_phiE A, v56_gate A, Ideal.mulf_def]
  refine Eq.trans ?_ (dif_pos (show ((⟨j.val, by omega⟩ : Fin 259)).val < 256 from j.isLt)).symm
  rfl

theorem v75_msg (e : Fin 65536) (a : Fin 3) :
    val_main_v75 A.x0 A.x1 A.x2 A.x5 A.x10 A.x11 A.x12 A.x13 A.x14 A.x15 (ix2 e a) = (𝓘).msg e ⟨256 + a.val, by omega⟩ := by
  rw [val_main_v75_apply, val_main_v74_apply, show idx_main_v74 (ix2 e a) = ix2 e 0 from eq_ix2 _, v73_wgt A, v19_at A, Ideal.mulf_def]
  refine Eq.trans ?_ (dif_neg (show ¬ ((⟨256 + a.val, by omega⟩ : Fin 259)).val < 256 by show ¬ (256 + a.val < 256); omega)).symm
  exact congrArg (fun b => _ * (𝓘).diff e b) (Fin.ext (by show a.val = 256 + a.val - 256; omega))

end Cert.ReferenceIdeal.Hand

end
-- ==== Proof.RefVal3.lean ====
import proofs.«411533_j19043884990716_1_alg».proof.Proof.RefVal2

noncomputable section

namespace Cert.ReferenceIdeal.Hand

open Cert.ReferenceIdeal Cert.ReferenceIdeal.Gen Idealize.ShloMosaic Idealize.ShloMosaic.ValueIdx Cert.ReferenceIdeal.Read Cert.Spec

variable (A : Args)

local notation "𝓘" => inputsX A

theorem v59_agg (n : Fin 2048) (j : Fin 256) :
    val_main_v59 A.x0 A.x1 A.x2 A.x3 A.x5 A.x6 A.x7 A.x8 A.x9 A.x20 A.x21 (ix2 n j) = (𝓘).agg n ⟨j.val, by omega⟩ := by
  rw [val_main_v59_apply]
  unfold Inputs.agg aggAt
  refine Finset.sum_congr rfl fun e _ => ?_
  rw [show lidx_main_v59 (ix2 n j) e = ix2 n e from eq_ix2 _, show ridx_main_v59 (ix2 n j) e = ix2 e j from eq_ix2 _, v58_msg A]; rfl

theorem v76_agg (n : Fin 2048) (a : Fin 3) :
    val_main_v76 A.x0 A.x1 A.x2 A.x3 A.x5 A.x10 A.x11 A.x12 A.x13 A.x14 A.x15 (ix2 n a) = (𝓘).agg n ⟨256 + a.val, by omega⟩ := by
  rw [val_main_v76_apply]
  unfold Inputs.agg aggAt
  refine Finset.sum_congr rfl fun e _ => ?_
  rw [show lidx_main_v76 (ix2 n a) e = ix2 n e from eq_ix2 _, show ridx_main_v76 (ix2 n a) e = ix2 e a from eq_ix2 _, v75_msg A]; rfl

theorem v77_at (n : Fin 2048) (a : Fin 3) :
    val_main_v77 A.x0 A.x1 A.x2 A.x3 A.x5 A.x10 A.x11 A.x12 A.x13 A.x14 A.x15 (ix2 n a) = (𝓘).coordsOut n a := by
  rw [val_main_v77_apply, v76_agg A]; rfl

theorem v60_at (n : Fin 2048) (k : Fin 392) :
    val_main_v60 A.x0 A.x1 A.x2 A.x3 A.x4 A.x5 A.x6 A.x7 A.x8 A.x9 A.x20 A.x21 (ix2 n k)
      = nodeIn ((𝓘).feats n) (fun k : Fin 256 => (𝓘).agg n ⟨k.val, by omega⟩) ((𝓘).nattr n) k := by
  refine (concat3_at _ _ _ _ n k (by rfl)).trans ?_
  unfold nodeIn
  by_cases h1 : k.val < 128
  · rw [dif_pos h1, dif_pos h1]; rfl
  · by_cases h2 : k.val < 384
    · rw [dif_neg h1, dif_pos (show k.val < 128 + 256 from h2), dif_neg h1, dif_pos h2]
      exact v59_agg A n ⟨k.val - 128, by omega⟩
    · rw [dif_neg h1, dif_neg (show ¬ k.val < 128 + 256 from h2), dif_neg h1, dif_neg h2]; rfl

theorem v65_hid (n : Fin 2048) (j : Fin 256) :
    val_main_v65 A.x0 A.x1 A.x2 A.x3 A.x4 A.x5 A.x6 A.x7 A.x8 A.x9 A.x16 A.x17 A.x20 A.x21 (ix2 n j)
      = hid (nodeIn ((𝓘).feats n) (fun k : Fin 256 => (𝓘).agg n ⟨k.val, by omega⟩) ((𝓘).nattr n)) (𝓘).Wn1 (𝓘).bn1 j := by
  refine (silu_fn _ _ _).trans (congrArg silu ?_)
  rw [val_main_v64_apply, val_main_v61_apply, val_main_v63_apply, val_main_v62_apply]
  exact lin_eq (fun k => (congrArg _ (eq_ix2 _)).trans (v60_at A n k)) (fun k => congrArg _ (eq_ix2 _)) (congrArg _ (eq_ix1 _))

theorem v70_at (n : Fin 2048) (j : Fin 128) :
    val_main_v70 A.x0 A.x1 A.x2 A.x3 A.x4 A.x5 A.x6 A.x7 A.x8 A.x9 A.x16 A.x17 A.x18 A.x19 A.x20 A.x21 (ix2 n j) = (𝓘).featsOut n j := by
  rw [val_main_v70_apply, val_main_v69_apply, val_main_v66_apply, val_main_v68_apply, val_main_v67_apply]
  exact congrArg (_ + ·) (lin_eq (fun k => (congrArg _ (eq_ix2 _)).trans (v65_hid A n k)) (fun k => congrArg _ (eq_ix2 _)) (congrArg _ (eq_ix1 _)))

end Cert.ReferenceIdeal.Hand

end
-- ==== Proof.RefVal.lean ====
import proofs.«411533_j19043884990716_1_alg».proof.Proof.RefVal3
import proofs.«411533_j19043884990716_1_alg».proof.Proof.SpecArr

noncomputable section

namespace Cert.ReferenceIdeal.Hand

open Cert.ReferenceIdeal Cert.ReferenceIdeal.Gen Idealize.ShloMosaic Idealize.ShloMosaic.TcCoe Idealize.SL.Sem
  Idealize.ShloMosaic.ValueIdx Cert.Spec

theorem ref_run (m : (ℓ : Loc nD τ sig) → Buf (Elt Ideal) ℓ) (ρ : Dev nD → PrngReg) :
    θ_run Cert.ReferenceIdeal.defs (onTc (τ := τ) (main (F := Ideal))) ⟨m, fun _ => 0, ρ⟩ fun r => ∀ c : Dev nD,
      r.2.mem ((c.tc : Thread nD τ).loc main_v77) = Cert.Spec.coordsArr (inputsOf m c)
      ∧ r.2.mem ((c.tc : Thread nD τ).loc main_v70) = Cert.Spec.featsArr (inputsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run Cert.ReferenceIdeal.defs _ _).mono (fun _ h c =>
    let l (b : Ref sig .tc) := m ((c.tc : Thread nD τ).loc b)
    let A : Args := ⟨l main_arg0, l main_arg1, l main_arg2, l main_arg3, l main_arg4, l main_arg5, l main_arg6, l main_arg7, l main_arg8, l main_arg9, l main_arg10, l main_arg11, l main_arg12, l main_arg13, l main_arg14, l main_arg15, l main_arg16, l main_arg17, l main_arg18, l main_arg19, l main_arg20, l main_arg21⟩
    ⟨(h c).1.trans (funext fun i => (congrArg _ (eq_ix2 i)).trans (v77_at A (i 0) (i 1))),
     (h c).2.1.trans (funext fun i => (congrArg _ (eq_ix2 i)).trans (v70_at A (i 0) (i 1))),
     (h c).2.2⟩)
    (Cert.ReferenceIdeal.Value.run (F := Ideal) m ρ)

end Cert.ReferenceIdeal.Hand

end
-- ==== Proof.lean ====
/- A message-passing layer in three kernel regions with host glue between them, against its host reference: both leave
   the updated coordinates and node features as the same functions of the same inputs. -/
import proofs.«411533_j19043884990716_1_alg».proof.Defs
import proofs.«411533_j19043884990716_1_alg».proof.Proof.Gen.Kernel
import proofs.«411533_j19043884990716_1_alg».proof.Proof.Gen.KernelIdeal
import proofs.«411533_j19043884990716_1_alg».proof.Proof.Gen.ReferenceIdeal
import proofs.«411533_j19043884990716_1_alg».proof.Proof.Gen.Pre_finite_inputs
import proofs.«411533_j19043884990716_1_alg».proof.Proof.KBFrame
import proofs.«411533_j19043884990716_1_alg».proof.Proof.KIFrame
import proofs.«411533_j19043884990716_1_alg».proof.Proof.KernelValue
import proofs.«411533_j19043884990716_1_alg».proof.Proof.PreRange
import proofs.«411533_j19043884990716_1_alg».proof.Proof.RefVal
import Idealize.ShloMosaic.Adequacy
import Idealize.ShloMosaic.Init

noncomputable section

namespace Cert.Proof

open Idealize.ShloMosaic Idealize.ShloMosaic.TcCoe Idealize.ShloMosaic.ValueIdx Idealize.SL.Sem

/-- Each kernel program's frame is its run with the two named results dropped. -/
theorem frame_k : Cert.frame_Kernel := fun m ρ _ =>
  (θ_run Cert.Kernel.defs _ _).mono (fun _ h c => (h c).2.2) (Cert.Kernel.Hand.run_values m ρ)

theorem frame_ki : Cert.frame_KernelIdeal := fun m ρ _ =>
  (θ_run Cert.KernelIdeal.defs _ _).mono (fun _ h c => (h c).2.2) (Cert.KernelIdeal.Hand.run_values m ρ)

theorem frame_ri : Cert.frame_ReferenceIdeal := fun m ρ _ =>
  (θ_run Cert.ReferenceIdeal.defs _ _).mono (fun _ h c => (h c).2.2) (Cert.ReferenceIdeal.Hand.ref_run m ρ)

/-- Under the precondition every index word of the edge list is, as a signed integer, in [-2048, 2048). -/
theorem edges_in_range (m : (ℓ : Loc Cert.KernelIdeal.nD Cert.KernelIdeal.τ Cert.KernelIdeal.sig) → Buf (Elt Ideal) ℓ)
    (hpre : Cert.Pre_KernelIdeal m) (c : Dev Cert.KernelIdeal.nD) (e : Fin 65536) (a : Fin 2) :
    -2048 ≤ ((Cert.KernelIdeal.Hand.inputsOf m c).edges e a).toInt
      ∧ ((Cert.KernelIdeal.Hand.inputsOf m c).edges e a).toInt < 2048 :=
  Cert.PreRange.edges_range (F := Ideal) _ _ _ _ _ _ _ _ _ _ _ _ _ _ _ _ _ _ _ _ _ _ (hpre c) (ix2 e a)

/-- The kernel and the reference, run from memories agreeing on the arguments, end with equal results. -/
theorem algebraic : Cert.algebraic_KernelIdeal_ReferenceIdeal := by
  intro m ρ m' ρ' hpre hagree
  refine ⟨fun c => Cert.Spec.coordsArr (Cert.KernelIdeal.Hand.inputsOf m c),
    fun c => Cert.Spec.featsArr (Cert.KernelIdeal.Hand.inputsOf m c), ?_, ?_⟩
  · refine (θ_run Cert.KernelIdeal.defs _ _).mono (fun r h c => ?_) (Cert.KernelIdeal.Hand.run_values m ρ)
    exact ⟨(h c).1.trans (Cert.KernelIdeal.Hand.kv_coordsArr m c (edges_in_range m hpre c)),
      (h c).2.1.trans (Cert.KernelIdeal.Hand.kv_featsArr m c (edges_in_range m hpre c)), (h c).2.2⟩
  · refine (θ_run Cert.ReferenceIdeal.defs _ _).mono (fun r h c => ?_) (Cert.ReferenceIdeal.Hand.ref_run m' ρ')
    have e : Cert.ReferenceIdeal.Hand.inputsOf m' c = Cert.KernelIdeal.Hand.inputsOf m c := by
      obtain ⟨h0, h1, h2, h3, h4, h5, h6, h7, h8, h9, h10, h11, h12, h13, h14, h15, h16, h17, h18, h19, h20, h21⟩ := hagree c
      unfold Cert.ReferenceIdeal.Hand.inputsOf Cert.KernelIdeal.Hand.inputsOf
      rw [h0, h1, h2, h3, h4, h5, h6, h7, h8, h9, h10, h11, h12, h13, h14, h15, h16, h17, h18, h19, h20, h21]
    have h' := h c
    rw [e] at h'
    exact h'

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
